-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x64x128 : Shape := ⟨3, ![512, 64, 128]⟩
abbrev S512x128x128 : Shape := ⟨3, ![512, 128, 128]⟩
abbrev S512x192x128 : Shape := ⟨3, ![512, 192, 128]⟩
abbrev S512x256x128 : Shape := ⟨3, ![512, 256, 128]⟩
abbrev S512x320x128 : Shape := ⟨3, ![512, 320, 128]⟩
abbrev S512x384x128 : Shape := ⟨3, ![512, 384, 128]⟩
abbrev S512x448x128 : Shape := ⟨3, ![512, 448, 128]⟩
abbrev S512x512x128 : Shape := ⟨3, ![512, 512, 128]⟩
abbrev S_ : Shape := ⟨0, ![]⟩

class Facts : Prop where
  bcast_S_S512x64x128 : S_.BroadcastsInDim S512x64x128 (![] : Fin 0 → Fin S512x64x128.rank)
  reducesTo_S512x64x128_S_d0_1_2 : S512x64x128.ReducesTo [0, 1, 2] S_
  h_S_ : 0 < S_.numel
  bcast_S_S512x128x128 : S_.BroadcastsInDim S512x128x128 (![] : Fin 0 → Fin S512x128x128.rank)
  reducesTo_S512x128x128_S_d0_1_2 : S512x128x128.ReducesTo [0, 1, 2] S_
  bcast_S_S512x192x128 : S_.BroadcastsInDim S512x192x128 (![] : Fin 0 → Fin S512x192x128.rank)
  reducesTo_S512x192x128_S_d0_1_2 : S512x192x128.ReducesTo [0, 1, 2] S_
  bcast_S_S512x256x128 : S_.BroadcastsInDim S512x256x128 (![] : Fin 0 → Fin S512x256x128.rank)
  reducesTo_S512x256x128_S_d0_1_2 : S512x256x128.ReducesTo [0, 1, 2] S_
  bcast_S_S512x320x128 : S_.BroadcastsInDim S512x320x128 (![] : Fin 0 → Fin S512x320x128.rank)
  reducesTo_S512x320x128_S_d0_1_2 : S512x320x128.ReducesTo [0, 1, 2] S_
  bcast_S_S512x384x128 : S_.BroadcastsInDim S512x384x128 (![] : Fin 0 → Fin S512x384x128.rank)
  reducesTo_S512x384x128_S_d0_1_2 : S512x384x128.ReducesTo [0, 1, 2] S_
  bcast_S_S512x448x128 : S_.BroadcastsInDim S512x448x128 (![] : Fin 0 → Fin S512x448x128.rank)
  reducesTo_S512x448x128_S_d0_1_2 : S512x448x128.ReducesTo [0, 1, 2] S_
  bcast_S_S512x512x128 : S_.BroadcastsInDim S512x512x128 (![] : Fin 0 → Fin S512x512x128.rank)
  reducesTo_S512x512x128_S_d0_1_2 : S512x512x128.ReducesTo [0, 1, 2] S_

variable [Facts]

def fn_part2 {F : FTy → Type} [FloatOps F] (main_arg7 : FVec F S512x512x128 .f32) (main_v33 : IVec S_ 1) : IVec S_ 1 :=
  let main_v34 : FVec F S512x512x128 .f32 := Host.absf main_arg7
  let main_cst_12 : FVec F S_ .f32 := constant S_ .f32 0x7F800000#32
  let main_v35 : FVec F S512x512x128 .f32 := broadcastInDim S512x512x128 ![] bcast_S_S512x512x128 main_cst_12
  let main_v36 : IVec S512x512x128 1 := cmpf .olt main_v34 main_v35
  let main_c_13 : IVec S_ 1 := constantI S_ 1 1#1
  let main_v37 : IVec S_ 1 := (fun x v => Host.reduce IntOp.andi x v reducesTo_S512x512x128_S_d0_1_2 h_S_) main_v36 main_c_13
  let main_v38 : IVec S_ 1 := andi main_v33 main_v37
  main_v38

def fn_part1 {F : FTy → Type} [FloatOps F] (main_arg4 : FVec F S512x320x128 .f32) (main_arg5 : FVec F S512x384x128 .f32) (main_arg6 : FVec F S512x448x128 .f32) (main_arg7 : FVec F S512x512x128 .f32) (main_v13 : IVec S_ 1) (main_v16 : IVec S512x256x128 1) : IVec S_ 1 :=
  let main_c_5 : IVec S_ 1 := constantI S_ 1 1#1
  let main_v17 : IVec S_ 1 := (fun x v => Host.reduce IntOp.andi x v reducesTo_S512x256x128_S_d0_1_2 h_S_) main_v16 main_c_5
  let main_v18 : IVec S_ 1 := andi main_v13 main_v17
  let main_v19 : FVec F S512x320x128 .f32 := Host.absf main_arg4
  let main_cst_6 : FVec F S_ .f32 := constant S_ .f32 0x7F800000#32
  let main_v20 : FVec F S512x320x128 .f32 := broadcastInDim S512x320x128 ![] bcast_S_S512x320x128 main_cst_6
  let main_v21 : IVec S512x320x128 1 := cmpf .olt main_v19 main_v20
  let main_c_7 : IVec S_ 1 := constantI S_ 1 1#1
  let main_v22 : IVec S_ 1 := (fun x v => Host.reduce IntOp.andi x v reducesTo_S512x320x128_S_d0_1_2 h_S_) main_v21 main_c_7
  let main_v23 : IVec S_ 1 := andi main_v18 main_v22
  let main_v24 : FVec F S512x384x128 .f32 := Host.absf main_arg5
  let main_cst_8 : FVec F S_ .f32 := constant S_ .f32 0x7F800000#32
  let main_v25 : FVec F S512x384x128 .f32 := broadcastInDim S512x384x128 ![] bcast_S_S512x384x128 main_cst_8
  let main_v26 : IVec S512x384x128 1 := cmpf .olt main_v24 main_v25
  let main_c_9 : IVec S_ 1 := constantI S_ 1 1#1
  let main_v27 : IVec S_ 1 := (fun x v => Host.reduce IntOp.andi x v reducesTo_S512x384x128_S_d0_1_2 h_S_) main_v26 main_c_9
  let main_v28 : IVec S_ 1 := andi main_v23 main_v27
  let main_v29 : FVec F S512x448x128 .f32 := Host.absf main_arg6
  let main_cst_10 : FVec F S_ .f32 := constant S_ .f32 0x7F800000#32
  let main_v30 : FVec F S512x448x128 .f32 := broadcastInDim S512x448x128 ![] bcast_S_S512x448x128 main_cst_10
  let main_v31 : IVec S512x448x128 1 := cmpf .olt main_v29 main_v30
  let main_c_11 : IVec S_ 1 := constantI S_ 1 1#1
  let main_v32 : IVec S_ 1 := (fun x v => Host.reduce IntOp.andi x v reducesTo_S512x448x128_S_d0_1_2 h_S_) main_v31 main_c_11
  let main_v33 : IVec S_ 1 := andi main_v28 main_v32
  fn_part2 (F := F) main_arg7 main_v33

def fn {F : FTy → Type} [FloatOps F] (main_arg0 : FVec F S512x64x128 .f32) (main_arg1 : FVec F S512x128x128 .f32) (main_arg2 : FVec F S512x192x128 .f32) (main_arg3 : FVec F S512x256x128 .f32) (main_arg4 : FVec F S512x320x128 .f32) (main_arg5 : FVec F S512x384x128 .f32) (main_arg6 : FVec F S512x448x128 .f32) (main_arg7 : FVec F S512x512x128 .f32) : IVec S_ 1 :=
  let main_v0 : FVec F S512x64x128 .f32 := Host.absf main_arg0
  let main_cst : FVec F S_ .f32 := constant S_ .f32 0x7F800000#32
  let main_v1 : FVec F S512x64x128 .f32 := broadcastInDim S512x64x128 ![] bcast_S_S512x64x128 main_cst
  let main_v2 : IVec S512x64x128 1 := cmpf .olt main_v0 main_v1
  let main_c : IVec S_ 1 := constantI S_ 1 1#1
  let main_v3 : IVec S_ 1 := (fun x v => Host.reduce IntOp.andi x v reducesTo_S512x64x128_S_d0_1_2 h_S_) main_v2 main_c
  let main_v4 : FVec F S512x128x128 .f32 := Host.absf main_arg1
  let main_cst_0 : FVec F S_ .f32 := constant S_ .f32 0x7F800000#32
  let main_v5 : FVec F S512x128x128 .f32 := broadcastInDim S512x128x128 ![] bcast_S_S512x128x128 main_cst_0
  let main_v6 : IVec S512x128x128 1 := cmpf .olt main_v4 main_v5
  let main_c_1 : IVec S_ 1 := constantI S_ 1 1#1
  let main_v7 : IVec S_ 1 := (fun x v => Host.reduce IntOp.andi x v reducesTo_S512x128x128_S_d0_1_2 h_S_) main_v6 main_c_1
  let main_v8 : IVec S_ 1 := andi main_v3 main_v7
  let main_v9 : FVec F S512x192x128 .f32 := Host.absf main_arg2
  let main_cst_2 : FVec F S_ .f32 := constant S_ .f32 0x7F800000#32
  let main_v10 : FVec F S512x192x128 .f32 := broadcastInDim S512x192x128 ![] bcast_S_S512x192x128 main_cst_2
  let main_v11 : IVec S512x192x128 1 := cmpf .olt main_v9 main_v10
  let main_c_3 : IVec S_ 1 := constantI S_ 1 1#1
  let main_v12 : IVec S_ 1 := (fun x v => Host.reduce IntOp.andi x v reducesTo_S512x192x128_S_d0_1_2 h_S_) main_v11 main_c_3
  let main_v13 : IVec S_ 1 := andi main_v8 main_v12
  let main_v14 : FVec F S512x256x128 .f32 := Host.absf main_arg3
  let main_cst_4 : FVec F S_ .f32 := constant S_ .f32 0x7F800000#32
  let main_v15 : FVec F S512x256x128 .f32 := broadcastInDim S512x256x128 ![] bcast_S_S512x256x128 main_cst_4
  let main_v16 : IVec S512x256x128 1 := cmpf .olt main_v14 main_v15
  fn_part1 (F := F) main_arg4 main_arg5 main_arg6 main_arg7 main_v13 main_v16
-- ==== Kernel.lean ====
abbrev S512x64x128 : Shape := ⟨3, ![512, 64, 128]⟩
abbrev S512x128x128 : Shape := ⟨3, ![512, 128, 128]⟩
abbrev S512x192x128 : Shape := ⟨3, ![512, 192, 128]⟩
abbrev S512x256x128 : Shape := ⟨3, ![512, 256, 128]⟩
abbrev S512x320x128 : Shape := ⟨3, ![512, 320, 128]⟩
abbrev S512x384x128 : Shape := ⟨3, ![512, 384, 128]⟩
abbrev S512x448x128 : Shape := ⟨3, ![512, 448, 128]⟩
abbrev S512x512x128 : Shape := ⟨3, ![512, 512, 128]⟩
abbrev S512x128 : Shape := ⟨2, ![512, 128]⟩
abbrev S128x64x128 : Shape := ⟨3, ![128, 64, 128]⟩
abbrev S128x128 : Shape := ⟨2, ![128, 128]⟩
abbrev S512x1024 : Shape := ⟨2, ![512, 1024]⟩

abbrev nBuf : Space → Nat
  | .hbm => 17
  | .vmem => 32
  | .smem => 0
  | _ => 0

abbrev bufTy : (tb : Table) → Fin (tcTables nBuf tb) → BufTy
  | .hbm, ⟨0, _⟩ => ⟨S512x64x128, .f32⟩
  | .hbm, ⟨1, _⟩ => ⟨S512x128x128, .f32⟩
  | .hbm, ⟨2, _⟩ => ⟨S512x192x128, .f32⟩
  | .hbm, ⟨3, _⟩ => ⟨S512x256x128, .f32⟩
  | .hbm, ⟨4, _⟩ => ⟨S512x320x128, .f32⟩
  | .hbm, ⟨5, _⟩ => ⟨S512x384x128, .f32⟩
  | .hbm, ⟨6, _⟩ => ⟨S512x448x128, .f32⟩
  | .hbm, ⟨7, _⟩ => ⟨S512x512x128, .f32⟩
  | .hbm, ⟨8, _⟩ => ⟨S512x128, .f32⟩
  | .hbm, ⟨9, _⟩ => ⟨S512x128, .f32⟩
  | .hbm, ⟨10, _⟩ => ⟨S512x128, .f32⟩
  | .hbm, ⟨11, _⟩ => ⟨S512x128, .f32⟩
  | .hbm, ⟨12, _⟩ => ⟨S512x128, .f32⟩
  | .hbm, ⟨13, _⟩ => ⟨S512x128, .f32⟩
  | .hbm, ⟨14, _⟩ => ⟨S512x128, .f32⟩
  | .hbm, ⟨15, _⟩ => ⟨S512x128, .f32⟩
  | .hbm, ⟨16, _⟩ => ⟨S512x1024, .f32⟩
  | .local _ .vmem, ⟨0, _⟩ => ⟨S128x64x128, .f32⟩
  | .local _ .vmem, ⟨1, _⟩ => ⟨S128x64x128, .f32⟩
  | .local _ .vmem, ⟨2, _⟩ => ⟨S128x128, .f32⟩
  | .local _ .vmem, ⟨3, _⟩ => ⟨S128x128, .f32⟩
  | .local _ .vmem, ⟨4, _⟩ => ⟨S128x64x128, .f32⟩
  | .local _ .vmem, ⟨5, _⟩ => ⟨S128x64x128, .f32⟩
  | .local _ .vmem, ⟨6, _⟩ => ⟨S128x128, .f32⟩
  | .local _ .vmem, ⟨7, _⟩ => ⟨S128x128, .f32⟩
  | .local _ .vmem, ⟨8, _⟩ => ⟨S128x64x128, .f32⟩
  | .local _ .vmem, ⟨9, _⟩ => ⟨S128x64x128, .f32⟩
  | .local _ .vmem, ⟨10, _⟩ => ⟨S128x128, .f32⟩
  | .local _ .vmem, ⟨11, _⟩ => ⟨S128x128, .f32⟩
  | .local _ .vmem, ⟨12, _⟩ => ⟨S128x64x128, .f32⟩
  | .local _ .vmem, ⟨13, _⟩ => ⟨S128x64x128, .f32⟩
  | .local _ .vmem, ⟨14, _⟩ => ⟨S128x128, .f32⟩
  | .local _ .vmem, ⟨15, _⟩ => ⟨S128x128, .f32⟩
  | .local _ .vmem, ⟨16, _⟩ => ⟨S128x64x128, .f32⟩
  | .local _ .vmem, ⟨17, _⟩ => ⟨S128x64x128, .f32⟩
  | .local _ .vmem, ⟨18, _⟩ => ⟨S128x128, .f32⟩
  | .local _ .vmem, ⟨19, _⟩ => ⟨S128x128, .f32⟩
  | .local _ .vmem, ⟨20, _⟩ => ⟨S128x64x128, .f32⟩
  | .local _ .vmem, ⟨21, _⟩ => ⟨S128x64x128, .f32⟩
  | .local _ .vmem, ⟨22, _⟩ => ⟨S128x128, .f32⟩
  | .local _ .vmem, ⟨23, _⟩ => ⟨S128x128, .f32⟩
  | .local _ .vmem, ⟨24, _⟩ => ⟨S128x64x128, .f32⟩
  | .local _ .vmem, ⟨25, _⟩ => ⟨S128x64x128, .f32⟩
  | .local _ .vmem, ⟨26, _⟩ => ⟨S128x128, .f32⟩
  | .local _ .vmem, ⟨27, _⟩ => ⟨S128x128, .f32⟩
  | .local _ .vmem, ⟨28, _⟩ => ⟨S128x64x128, .f32⟩
  | .local _ .vmem, ⟨29, _⟩ => ⟨S128x64x128, .f32⟩
  | .local _ .vmem, ⟨30, _⟩ => ⟨S128x128, .f32⟩
  | .local _ .vmem, ⟨31, _⟩ => ⟨S128x128, .f32⟩
  | _, _ => ⟨S512x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc3_stg0_0 : Ref sig .tc := ⟨.vmem, 12, rfl⟩
abbrev cc3_stg0_1 : Ref sig .tc := ⟨.vmem, 13, rfl⟩
abbrev cc3_stg1_0 : Ref sig .tc := ⟨.vmem, 14, rfl⟩
abbrev cc3_stg1_1 : Ref sig .tc := ⟨.vmem, 15, rfl⟩
abbrev cc4_stg0_0 : Ref sig .tc := ⟨.vmem, 16, rfl⟩
abbrev cc4_stg0_1 : Ref sig .tc := ⟨.vmem, 17, rfl⟩
abbrev cc4_stg1_0 : Ref sig .tc := ⟨.vmem, 18, rfl⟩
abbrev cc4_stg1_1 : Ref sig .tc := ⟨.vmem, 19, rfl⟩
abbrev cc5_stg0_0 : Ref sig .tc := ⟨.vmem, 20, rfl⟩
abbrev cc5_stg0_1 : Ref sig .tc := ⟨.vmem, 21, rfl⟩
abbrev cc5_stg1_0 : Ref sig .tc := ⟨.vmem, 22, rfl⟩
abbrev cc5_stg1_1 : Ref sig .tc := ⟨.vmem, 23, rfl⟩
abbrev cc6_stg0_0 : Ref sig .tc := ⟨.vmem, 24, rfl⟩
abbrev cc6_stg0_1 : Ref sig .tc := ⟨.vmem, 25, rfl⟩
abbrev cc6_stg1_0 : Ref sig .tc := ⟨.vmem, 26, rfl⟩
abbrev cc6_stg1_1 : Ref sig .tc := ⟨.vmem, 27, rfl⟩
abbrev cc7_stg0_0 : Ref sig .tc := ⟨.vmem, 28, rfl⟩
abbrev cc7_stg0_1 : Ref sig .tc := ⟨.vmem, 29, rfl⟩
abbrev cc7_stg1_0 : Ref sig .tc := ⟨.vmem, 30, rfl⟩
abbrev cc7_stg1_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc3_sem0_0 : DmaSem sig := 12
abbrev cc3_sem0_1 : DmaSem sig := 13
abbrev cc3_sem1_0 : DmaSem sig := 14
abbrev cc3_sem1_1 : DmaSem sig := 15
abbrev cc4_sem0_0 : DmaSem sig := 16
abbrev cc4_sem0_1 : DmaSem sig := 17
abbrev cc4_sem1_0 : DmaSem sig := 18
abbrev cc4_sem1_1 : DmaSem sig := 19
abbrev cc5_sem0_0 : DmaSem sig := 20
abbrev cc5_sem0_1 : DmaSem sig := 21
abbrev cc5_sem1_0 : DmaSem sig := 22
abbrev cc5_sem1_1 : DmaSem sig := 23
abbrev cc6_sem0_0 : DmaSem sig := 24
abbrev cc6_sem0_1 : DmaSem sig := 25
abbrev cc6_sem1_0 : DmaSem sig := 26
abbrev cc6_sem1_1 : DmaSem sig := 27
abbrev cc7_sem0_0 : DmaSem sig := 28
abbrev cc7_sem0_1 : DmaSem sig := 29
abbrev cc7_sem1_0 : DmaSem sig := 30
abbrev cc7_sem1_1 : DmaSem sig := 31

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S128x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![4, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S128x64x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S128x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev grid2 : Pipeline.Grid := ⟨2, ![4, 3], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S128x64x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S128x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev grid3 : Pipeline.Grid := ⟨2, ![4, 4], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S128x64x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S128x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev grid4 : Pipeline.Grid := ⟨2, ![4, 5], ![false, false]⟩

def cc4_transform_0 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S128x64x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S128x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev grid5 : Pipeline.Grid := ⟨2, ![4, 6], ![false, false]⟩

def cc5_transform_0 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S128x64x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S128x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, false]

abbrev grid6 : Pipeline.Grid := ⟨2, ![4, 7], ![false, false]⟩

def cc6_transform_0 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage6_0 : Fin 2 → Memref sig .tc .vmem S128x64x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, true]

abbrev stage6_1 : Fin 2 → Memref sig .tc .vmem S128x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, false]

abbrev grid7 : Pipeline.Grid := ⟨2, ![4, 8], ![false, false]⟩

def cc7_transform_0 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage7_0 : Fin 2 → Memref sig .tc .vmem S128x64x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, true]

abbrev stage7_1 : Fin 2 → Memref sig .tc .vmem S128x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true, false]

class Facts₀ : Prop where
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x64x128_S128x64x128_0_0_0 : ∀ a, (![0, 0, 0] : Fin 3 → Nat) a + S128x64x128.size a ≤ S128x64x128.size a
  h_S128x64x128 : 0 < S128x64x128.numel
  reduces_S128x64x128_S128x128 : S128x64x128.Reduces [1] S128x128
  concatenates_S512x128_S512x128_S512x128_S512x128_S512x128_S512x128_S512x128_S512x128_S512x1024_d1 : Shape.Concatenates [S512x128, S512x128, S512x128, S512x128, S512x128, S512x128, S512x128, S512x128] S512x1024 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x64x128.size a ≤ S512x64x128.size a
  hwx0_0 : ∀ i : grid0.Coords, EltTy.bits .f32 = 32 ∨ (Rect.block (s := S512x64x128) S128x64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S512x128.size a
  hwx0_1 : ∀ i : grid0.Coords, EltTy.bits .f32 = 32 ∨ (Rect.block (s := S512x128) S128x128.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x64x128.size a ≤ S512x128x128.size a
  hwx1_0 : ∀ i : grid1.Coords, EltTy.bits .f32 = 32 ∨ (Rect.block (s := S512x128x128) S128x64x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S512x128.size a
  hwx1_1 : ∀ i : grid1.Coords, EltTy.bits .f32 = 32 ∨ (Rect.block (s := S512x128) S128x128.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S128x64x128.size a ≤ S512x192x128.size a
  hwx2_0 : ∀ i : grid2.Coords, EltTy.bits .f32 = 32 ∨ (Rect.block (s := S512x192x128) S128x64x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S512x128.size a
  hwx2_1 : ∀ i : grid2.Coords, EltTy.bits .f32 = 32 ∨ (Rect.block (s := S512x128) S128x128.size (cc2_transform_1 i) (hinb2_1 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S128x64x128.size a ≤ S512x256x128.size a
  hwx3_0 : ∀ i : grid3.Coords, EltTy.bits .f32 = 32 ∨ (Rect.block (s := S512x256x128) S128x64x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S512x128.size a
  hwx3_1 : ∀ i : grid3.Coords, EltTy.bits .f32 = 32 ∨ (Rect.block (s := S512x128) S128x128.size (cc3_transform_1 i) (hinb3_1 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S128x64x128.size a ≤ S512x320x128.size a
  hwx4_0 : ∀ i : grid4.Coords, EltTy.bits .f32 = 32 ∨ (Rect.block (s := S512x320x128) S128x64x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S512x128.size a
  hwx4_1 : ∀ i : grid4.Coords, EltTy.bits .f32 = 32 ∨ (Rect.block (s := S512x128) S128x128.size (cc4_transform_1 i) (hinb4_1 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S128x64x128.size a ≤ S512x384x128.size a
  hwx5_0 : ∀ i : grid5.Coords, EltTy.bits .f32 = 32 ∨ (Rect.block (s := S512x384x128) S128x64x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S512x128.size a
  hwx5_1 : ∀ i : grid5.Coords, EltTy.bits .f32 = 32 ∨ (Rect.block (s := S512x128) S128x128.size (cc5_transform_1 i) (hinb5_1 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S128x64x128.size a ≤ S512x448x128.size a
  hwx6_0 : ∀ i : grid6.Coords, EltTy.bits .f32 = 32 ∨ (Rect.block (s := S512x448x128) S128x64x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S512x128.size a
  hwx6_1 : ∀ i : grid6.Coords, EltTy.bits .f32 = 32 ∨ (Rect.block (s := S512x128) S128x128.size (cc6_transform_1 i) (hinb6_1 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S128x64x128.size a ≤ S512x512x128.size a
  hwx7_0 : ∀ i : grid7.Coords, EltTy.bits .f32 = 32 ∨ (Rect.block (s := S512x512x128) S128x64x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S128x128.size a ≤ S512x128.size a
  hwx7_1 : ∀ i : grid7.Coords, EltTy.bits .f32 = 32 ∨ (Rect.block (s := S512x128) S128x128.size (cc7_transform_1 i) (hinb7_1 i)).WholeWords (EltTy.packing .f32)

variable [Facts₀]

abbrev win0_0 : Pipeline.Window sig grid0 :=
  Pipeline.Window.ofSpec (Memref.whole main_arg0) S128x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg1) S128x64x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S128x128.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_arg2) S128x64x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S128x128.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

abbrev win3_0 : Pipeline.Window sig grid3 :=
  Pipeline.Window.ofSpec (Memref.whole main_arg3) S128x64x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v3) S128x128.size cc3_transform_1 reads3_1 true false 2 stage3_1 sem3_1
    hrank3 hreads3_1 hinb3_1 nbuf3_1 (Memref.isWhole_whole _) hwx3_1 hstage3_1

abbrev win3 : Fin 2 → Pipeline.Window sig grid3 := fun | 0 => win3_0 | 1 => win3_1 | ⟨_ + 2, h⟩ => absurd h (Nat.not_lt.2 (Nat.le_add_left _ _))
abbrev spec3 : Fin 2 → Pipeline.WinSpec sig grid3.rank := fun w => (win3 w).toWinSpec

abbrev win4_0 : Pipeline.Window sig grid4 :=
  Pipeline.Window.ofSpec (Memref.whole main_arg4) S128x64x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v4) S128x128.size cc4_transform_1 reads4_1 true false 2 stage4_1 sem4_1
    hrank4 hreads4_1 hinb4_1 nbuf4_1 (Memref.isWhole_whole _) hwx4_1 hstage4_1

abbrev win4 : Fin 2 → Pipeline.Window sig grid4 := fun | 0 => win4_0 | 1 => win4_1 | ⟨_ + 2, h⟩ => absurd h (Nat.not_lt.2 (Nat.le_add_left _ _))
abbrev spec4 : Fin 2 → Pipeline.WinSpec sig grid4.rank := fun w => (win4 w).toWinSpec

abbrev win5_0 : Pipeline.Window sig grid5 :=
  Pipeline.Window.ofSpec (Memref.whole main_arg5) S128x64x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v5) S128x128.size cc5_transform_1 reads5_1 true false 2 stage5_1 sem5_1
    hrank5 hreads5_1 hinb5_1 nbuf5_1 (Memref.isWhole_whole _) hwx5_1 hstage5_1

abbrev win5 : Fin 2 → Pipeline.Window sig grid5 := fun | 0 => win5_0 | 1 => win5_1 | ⟨_ + 2, h⟩ => absurd h (Nat.not_lt.2 (Nat.le_add_left _ _))
abbrev spec5 : Fin 2 → Pipeline.WinSpec sig grid5.rank := fun w => (win5 w).toWinSpec

abbrev win6_0 : Pipeline.Window sig grid6 :=
  Pipeline.Window.ofSpec (Memref.whole main_arg6) S128x64x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v6) S128x128.size cc6_transform_1 reads6_1 true false 2 stage6_1 sem6_1
    hrank6 hreads6_1 hinb6_1 nbuf6_1 (Memref.isWhole_whole _) hwx6_1 hstage6_1

abbrev win6 : Fin 2 → Pipeline.Window sig grid6 := fun | 0 => win6_0 | 1 => win6_1 | ⟨_ + 2, h⟩ => absurd h (Nat.not_lt.2 (Nat.le_add_left _ _))
abbrev spec6 : Fin 2 → Pipeline.WinSpec sig grid6.rank := fun w => (win6 w).toWinSpec

abbrev win7_0 : Pipeline.Window sig grid7 :=
  Pipeline.Window.ofSpec (Memref.whole main_arg7) S128x64x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v7) S128x128.size cc7_transform_1 reads7_1 true false 2 stage7_1 sem7_1
    hrank7 hreads7_1 hinb7_1 nbuf7_1 (Memref.isWhole_whole _) hwx7_1 hstage7_1

abbrev win7 : Fin 2 → Pipeline.Window sig grid7 := fun | 0 => win7_0 | 1 => win7_1 | ⟨_ + 2, h⟩ => absurd h (Nat.not_lt.2 (Nat.le_add_left _ _))
abbrev spec7 : Fin 2 → Pipeline.WinSpec sig grid7.rank := fun w => (win7 w).toWinSpec

class Facts : Prop extends Facts₀ where

variable [Facts]
-- ==== ReferenceIdeal.lean ====
abbrev S512x64x128 : Shape := ⟨3, ![512, 64, 128]⟩
abbrev S512x128x128 : Shape := ⟨3, ![512, 128, 128]⟩
abbrev S512x192x128 : Shape := ⟨3, ![512, 192, 128]⟩
abbrev S512x256x128 : Shape := ⟨3, ![512, 256, 128]⟩
abbrev S512x320x128 : Shape := ⟨3, ![512, 320, 128]⟩
abbrev S512x384x128 : Shape := ⟨3, ![512, 384, 128]⟩
abbrev S512x448x128 : Shape := ⟨3, ![512, 448, 128]⟩
abbrev S512x512x128 : Shape := ⟨3, ![512, 512, 128]⟩
abbrev S_ : Shape := ⟨0, ![]⟩
abbrev S512x128 : Shape := ⟨2, ![512, 128]⟩
abbrev S512x1024 : Shape := ⟨2, ![512, 1024]⟩

abbrev nBuf : Space → Nat
  | .hbm => 25
  | .vmem => 0
  | .smem => 0
  | _ => 0

abbrev bufTy : (tb : Table) → Fin (tcTables nBuf tb) → BufTy
  | .hbm, ⟨0, _⟩ => ⟨S512x64x128, .f32⟩
  | .hbm, ⟨1, _⟩ => ⟨S512x128x128, .f32⟩
  | .hbm, ⟨2, _⟩ => ⟨S512x192x128, .f32⟩
  | .hbm, ⟨3, _⟩ => ⟨S512x256x128, .f32⟩
  | .hbm, ⟨4, _⟩ => ⟨S512x320x128, .f32⟩
  | .hbm, ⟨5, _⟩ => ⟨S512x384x128, .f32⟩
  | .hbm, ⟨6, _⟩ => ⟨S512x448x128, .f32⟩
  | .hbm, ⟨7, _⟩ => ⟨S512x512x128, .f32⟩
  | .hbm, ⟨8, _⟩ => ⟨S_, .f32⟩
  | .hbm, ⟨9, _⟩ => ⟨S512x128, .f32⟩
  | .hbm, ⟨10, _⟩ => ⟨S_, .f32⟩
  | .hbm, ⟨11, _⟩ => ⟨S512x128, .f32⟩
  | .hbm, ⟨12, _⟩ => ⟨S_, .f32⟩
  | .hbm, ⟨13, _⟩ => ⟨S512x128, .f32⟩
  | .hbm, ⟨14, _⟩ => ⟨S_, .f32⟩
  | .hbm, ⟨15, _⟩ => ⟨S512x128, .f32⟩
  | .hbm, ⟨16, _⟩ => ⟨S_, .f32⟩
  | .hbm, ⟨17, _⟩ => ⟨S512x128, .f32⟩
  | .hbm, ⟨18, _⟩ => ⟨S_, .f32⟩
  | .hbm, ⟨19, _⟩ => ⟨S512x128, .f32⟩
  | .hbm, ⟨20, _⟩ => ⟨S_, .f32⟩
  | .hbm, ⟨21, _⟩ => ⟨S512x128, .f32⟩
  | .hbm, ⟨22, _⟩ => ⟨S_, .f32⟩
  | .hbm, ⟨23, _⟩ => ⟨S512x128, .f32⟩
  | .hbm, ⟨24, _⟩ => ⟨S512x1024, .f32⟩
  | _, _ => ⟨S512x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_cst_1 : Ref sig .tc := ⟨.hbm, 12, rfl⟩
abbrev main_v2 : Ref sig .tc := ⟨.hbm, 13, rfl⟩
abbrev main_cst_2 : Ref sig .tc := ⟨.hbm, 14, rfl⟩
abbrev main_v3 : Ref sig .tc := ⟨.hbm, 15, rfl⟩
abbrev main_cst_3 : Ref sig .tc := ⟨.hbm, 16, rfl⟩
abbrev main_v4 : Ref sig .tc := ⟨.hbm, 17, rfl⟩
abbrev main_cst_4 : Ref sig .tc := ⟨.hbm, 18, rfl⟩
abbrev main_v5 : Ref sig .tc := ⟨.hbm, 19, rfl⟩
abbrev main_cst_5 : Ref sig .tc := ⟨.hbm, 20, rfl⟩
abbrev main_v6 : Ref sig .tc := ⟨.hbm, 21, rfl⟩
abbrev main_cst_6 : Ref sig .tc := ⟨.hbm, 22, rfl⟩
abbrev main_v7 : Ref sig .tc := ⟨.hbm, 23, rfl⟩
abbrev main_v8 : Ref sig .tc := ⟨.hbm, 24, rfl⟩

abbrev nD : Nat := 1
abbrev τ : Topo := Topo.v7x

variable {F : FTy → Type} [FloatOps F]

class Facts₀ : Prop where
  reducesTo_S512x64x128_S512x128_d1 : S512x64x128.ReducesTo [1] S512x128
  h_S_ : 0 < S_.numel
  reducesTo_S512x128x128_S512x128_d1 : S512x128x128.ReducesTo [1] S512x128
  reducesTo_S512x192x128_S512x128_d1 : S512x192x128.ReducesTo [1] S512x128
  reducesTo_S512x256x128_S512x128_d1 : S512x256x128.ReducesTo [1] S512x128
  reducesTo_S512x320x128_S512x128_d1 : S512x320x128.ReducesTo [1] S512x128
  reducesTo_S512x384x128_S512x128_d1 : S512x384x128.ReducesTo [1] S512x128
  reducesTo_S512x448x128_S512x128_d1 : S512x448x128.ReducesTo [1] S512x128
  reducesTo_S512x512x128_S512x128_d1 : S512x512x128.ReducesTo [1] S512x128
  concatenates_S512x128_S512x128_S512x128_S512x128_S512x128_S512x128_S512x128_S512x128_S512x1024_d1 : Shape.Concatenates [S512x128, S512x128, S512x128, S512x128, S512x128, S512x128, S512x128, S512x128] S512x1024 1

variable [Facts₀]

class Facts : Prop extends Facts₀ where

variable [Facts]
-- ==== Proof.Kernel.Body.lean ====
import proofs.«132601_j48773648613702_1_alg».proof.Proof.Gen.Kernel.Launch
import proofs.«132601_j48773648613702_1_alg».proof.Proof.Gen.Kernel.Skeleton
import proofs.«132601_j48773648613702_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev In := Memref sig .tc .vmem S128x64x128 .f32
abbrev Out := Memref sig .tc .vmem S128x128 .f32

/-- The eight kernel functions are one function of the second grid coordinate, studied at the largest grid; its branch condition: -/
abbrev cond (i : grid7.Coords) : Prop := (Scalar.cmpi .ne (Scalar.extui (Scalar.cmpi .eq (BitVec.ofNat 32 (i 1).val) 0#32)) 0#32) = 1#1

abbrev zero : Vec F S128x128 .f32 := broadcast S128x128 (Scalar.ofBits .f32 0x00000000#32)
abbrev part (x : Vec F S128x64x128 .f32) : FVec F S128x128 .f32 :=
  multiReduction .add [1] S128x128 x 0x00000000#32 reduces_S128x64x128_S128x128 (.inl rfl) rfl

theorem hz2 : (![0, 0] : Fin 2 → Nat) = fun _ => 0 := funext fun a => by fin_cases a <;> rfl
theorem hz3 : (![0, 0, 0] : Fin 3 → Nat) = fun _ => 0 := funext fun a => by fin_cases a <;> rfl

noncomputable def runReset (c : Dev nD) (i : grid7.Coords) (a2 : In) (h2 : a2.IsWhole) (a3 : Out) (h3 : a3.IsWhole) (hc : cond i)
    (x : Vec F S128x64x128 .f32) :
    { L1 : List (View.Piece (Elt F) S128x128 .f32) //
      ∀ (E : Set ℕ) (K : PUnit → sProp 𝕄),
        iprop(owns (c : Thread nD τ) a2 fullShare x ∗ (∃ d, owns (c : Thread nD τ) a3 fullShare d)
            ∗ (iprop(owns (c : Thread nD τ) a2 fullShare x ∗ (∃ f, a3.view.loc (c : Thread nD τ) ↦[a3.view.set]{fullShare} a3.view.writes (Elt F) f L1)) -∗ K ⟨⟩))
          ⊢ wp frame (wpE (defs₀ (F := F)) Variants.none c none) E (cc7__sum_seq_kernel i a2 h2 a3 h3) K } := by
  refine ⟨?_, fun E K => ?run⟩
  case run =>
    simp only [cc7__sum_seq_kernel_eq_skeleton]; unfold cc7__sum_seq_kernel_skel
    unfold owns
    iintro ⟨⟨%f0, %hf0, H0⟩, ⟨%d1, %f1, -, H1⟩, Hk⟩
    obtain rfl := h2.eq_unread hf0
    sl_exec (disch := first | exact hc)
    sl_step
    iapply Hk
    isplitl [H0]
    · iexists _; isplitr; · ipureintro; exact h2.read_unread _
      iexact H0
    iexists _; iexact H1

noncomputable def runLater (c : Dev nD) (i : grid7.Coords) (a2 : In) (h2 : a2.IsWhole) (a3 : Out) (h3 : a3.IsWhole) (hc : ¬cond i)
    (x : Vec F S128x64x128 .f32) (xo : Vec F S128x128 .f32) :
    { L1 : List (View.Piece (Elt F) S128x128 .f32) //
      ∀ (E : Set ℕ) (K : PUnit → sProp 𝕄),
        iprop(owns (c : Thread nD τ) a2 fullShare x ∗ owns (c : Thread nD τ) a3 fullShare xo
            ∗ (iprop(owns (c : Thread nD τ) a2 fullShare x ∗ (∃ f, a3.view.loc (c : Thread nD τ) ↦[a3.view.set]{fullShare} a3.view.writes (Elt F) f L1)) -∗ K ⟨⟩))
          ⊢ wp frame (wpE (defs₀ (F := F)) Variants.none c none) E (cc7__sum_seq_kernel i a2 h2 a3 h3) K } := by
  refine ⟨?_, fun E K => ?run⟩
  case run =>
    simp only [cc7__sum_seq_kernel_eq_skeleton]; unfold cc7__sum_seq_kernel_skel
    unfold owns
    iintro ⟨⟨%f0, %hf0, H0⟩, ⟨%f1, %hf1, H1⟩, Hk⟩
    obtain rfl := h2.eq_unread hf0; obtain rfl := h3.eq_unread hf1
    sl_exec (disch := first | exact hc)
    sl_step
    iapply Hk
    isplitl [H0]
    · iexists _; isplitr; · ipureintro; exact h2.read_unread _
      iexact H0
    iexists _; iexact H1

/-- A reset point leaves zero plus the block's sums over its 64 rows, whatever the result block held. -/
theorem reset_val (c : Dev nD) (i : grid7.Coords) (a2 : In) (h2 : a2.IsWhole) (a3 : Out) (h3 : a3.IsWhole) (hc : cond i)
    (x : Vec F S128x64x128 .f32) (f) :
    a3.view.read (Elt F) (a3.view.writes (Elt F) f (runReset c i a2 h2 a3 h3 hc x).1) = addf zero (part x) := by
  rw [View.read_writes_eq_canon _ _ _ (View.cover_of_tiledL (runReset c i a2 h2 a3 h3 hc x).1 S128x128.size (by sl_kernel_rfl))]
  unfold runReset
  dsimp only
  sl_unfold_words
  rw [View.canon_cons_unit_zero (S := S128x128) hz2, View.readCov_unit_zero (S := S128x128) _ hz2]
  unfold k7_pay2 k7_pay1
  simp only [View.readAt_eq_ld, h2.read_unread, View.ld_unit_zero (S := S128x128) hz2, View.ld_unit_zero (S := S128x64x128) hz3, shapeCast_self]

/-- A later point leaves what the result block held plus the block's row sums. -/
theorem later_val (c : Dev nD) (i : grid7.Coords) (a2 : In) (h2 : a2.IsWhole) (a3 : Out) (h3 : a3.IsWhole) (hc : ¬cond i)
    (x : Vec F S128x64x128 .f32) (xo : Vec F S128x128 .f32) (f) :
    a3.view.read (Elt F) (a3.view.writes (Elt F) f (runLater c i a2 h2 a3 h3 hc x xo).1) = addf xo (part x) := by
  rw [View.read_writes_eq_canon _ _ _ (View.cover_of_tiledL (runLater c i a2 h2 a3 h3 hc x xo).1 S128x128.size (by sl_kernel_rfl))]
  unfold runLater
  dsimp only
  rw [View.canon_unit_zero hz2]
  unfold k7_pay2
  simp only [View.readAt_eq_ld, h2.read_unread, h3.read_unread, View.ld_unit_zero (S := S128x128) hz2, View.ld_unit_zero (S := S128x64x128) hz3, shapeCast_self]

theorem wp_reset (c : Dev nD) (i : grid7.Coords) (a2 : In) (h2 : a2.IsWhole) (a3 : Out) (h3 : a3.IsWhole) (hc : cond i)
    (x : Vec F S128x64x128 .f32) (E : Set ℕ) (K : PUnit → sProp 𝕄) :
    iprop(owns (c : Thread nD τ) a2 fullShare x ∗ (∃ d, owns (c : Thread nD τ) a3 fullShare d)
        ∗ (iprop(owns (c : Thread nD τ) a2 fullShare x ∗ owns (c : Thread nD τ) a3 fullShare (addf zero (part x))) -∗ K ⟨⟩))
      ⊢ wp frame (wpE (defs₀ (F := F)) Variants.none c none) E (cc7__sum_seq_kernel i a2 h2 a3 h3) K := by
  iintro ⟨H0, H1, Hk⟩
  iapply ((runReset c i a2 h2 a3 h3 hc x).2 E K)
  isplitl [H0]; · iexact H0
  isplitl [H1]; · iexact H1
  iintro ⟨H0, ⟨%e1, H1⟩⟩
  iapply Hk
  isplitl [H0]; · iexact H0
  unfold owns; iexists _; isplitr
  swap; · iexact H1
  ipureintro; exact reset_val c i a2 h2 a3 h3 hc x _

theorem wp_later (c : Dev nD) (i : grid7.Coords) (a2 : In) (h2 : a2.IsWhole) (a3 : Out) (h3 : a3.IsWhole) (hc : ¬cond i)
    (x : Vec F S128x64x128 .f32) (xo : Vec F S128x128 .f32) (E : Set ℕ) (K : PUnit → sProp 𝕄) :
    iprop(owns (c : Thread nD τ) a2 fullShare x ∗ owns (c : Thread nD τ) a3 fullShare xo
        ∗ (iprop(owns (c : Thread nD τ) a2 fullShare x ∗ owns (c : Thread nD τ) a3 fullShare (addf xo (part x))) -∗ K ⟨⟩))
      ⊢ wp frame (wpE (defs₀ (F := F)) Variants.none c none) E (cc7__sum_seq_kernel i a2 h2 a3 h3) K := by
  iintro ⟨H0, H1, Hk⟩
  iapply ((runLater c i a2 h2 a3 h3 hc x xo).2 E K)
  isplitl [H0]; · iexact H0
  isplitl [H1]; · iexact H1
  iintro ⟨H0, ⟨%e1, H1⟩⟩
  iapply Hk
  isplitl [H0]; · iexact H0
  unfold owns; iexists _; isplitr
  swap; · iexact H1
  ipureintro; exact later_val c i a2 h2 a3 h3 hc x xo _

/-- Window `w`'s block of its array at point `t` of a pallas_call, the arrays at `V`. -/
def iblk (cfg : Cfg sig Λ₀) (V : (c : Dev nD) → (b : Ref sig .tc) → Buf (Elt F) ((c : Thread nD τ).loc b)) (c : Dev nD) (w : Fin cfg.W) (t : Fin cfg.N) :
    ((cfg.win w).xblock (cfg.grid.coords t)).Idx → Elt F (cfg.win w).elt :=
  ((cfg.win w).blk t).view.read (Elt F) (V c (Pipeline.arrRef (fun w => (cfg.win w).toWinSpec) w))

/-- The result block after point `n` when the sum restarts at every `k`-th point. -/
def acc (k : ℕ) {N : ℕ} (blk : Fin N → Vec F S128x64x128 .f32) : (n : ℕ) → n < N → Vec F S128x128 .f32
  | 0, h => addf zero (part (blk ⟨0, h⟩))
  | n + 1, h =>
    if (n + 1) % k = 0 then addf zero (part (blk ⟨n + 1, h⟩))
    else addf (acc k blk n (Nat.lt_of_succ_lt h)) (part (blk ⟨n + 1, h⟩))

theorem acc_reset (k : ℕ) {N : ℕ} (blk : Fin N → Vec F S128x64x128 .f32) (t : Fin N) (h0 : t.val % k = 0) :
    acc k blk t.val t.isLt = addf zero (part (blk t)) := by
  obtain ⟨n, hn⟩ := t
  cases n with
  | zero => rfl
  | succ n => exact if_pos h0

theorem acc_later (k : ℕ) {N : ℕ} (blk : Fin N → Vec F S128x64x128 .f32) (t : Fin N) (h0 : ¬t.val % k = 0) :
    acc k blk t.val t.isLt = addf (acc k blk (t.val - 1) (Nat.lt_of_le_of_lt (Nat.sub_le _ _) t.isLt)) (part (blk t)) := by
  obtain ⟨n, hn⟩ := t
  cases n with
  | zero => exact absurd (Nat.zero_mod _) h0
  | succ n => exact if_neg h0

/-- The body at point `t`, by the two cases. -/
theorem wp_point (c : Dev nD) (k : ℕ) {N : ℕ} (blk : Fin N → Vec F S128x64x128 .f32) (t : Fin N) (i : grid7.Coords)
    (hi : cond i ↔ t.val % k = 0) (a2 : In) (h2 : a2.IsWhole) (a3 : Out) (h3 : a3.IsWhole)
    {D0 D1 : Type} (b : D1 → Vec F S128x128 .f32)
    (hb : ¬t.val % k = 0 → ∀ d, b d = acc k blk (t.val - 1) (Nat.lt_of_le_of_lt (Nat.sub_le _ _) t.isLt))
    (Φ Ω : sProp 𝕄) :
    iprop(Φ ∗ Ω ∗ (∃ _d : D0, owns (c : Thread nD τ) a2 fullShare (blk t)) ∗ (∃ d : D1, owns (c : Thread nD τ) a3 fullShare (b d)))
      ⊢ wp frame (wpE (defs₀ (F := F)) Variants.none c none) Set.univ (cc7__sum_seq_kernel i a2 h2 a3 h3)
          (fun _ => iprop(Φ ∗ Ω ∗ owns (c : Thread nD τ) a2 fullShare (blk t) ∗ owns (c : Thread nD τ) a3 fullShare (acc k blk t.val t.isLt))) := by
  by_cases h0 : t.val % k = 0
  · rw [acc_reset k blk t h0]
    iintro ⟨HΦ, HΩ, ⟨%d0, H0⟩, ⟨%d1, H1⟩⟩
    iapply (wp_reset c i a2 h2 a3 h3 (hi.mpr h0) (blk t) Set.univ _)
    isplitl [H0]; · iexact H0
    isplitl [H1]; · iexists _; iexact H1
    iintro ⟨H0, H1⟩
    isplitl [HΦ]; · iexact HΦ
    isplitl [HΩ]; · iexact HΩ
    isplitl [H0]; · iexact H0
    iexact H1
  · rw [acc_later k blk t h0]
    simp only [hb h0]
    iintro ⟨HΦ, HΩ, ⟨%d0, H0⟩, ⟨%d1, H1⟩⟩
    iapply (wp_later c i a2 h2 a3 h3 (fun h => h0 (hi.mp h)) (blk t) _ Set.univ _)
    isplitl [H0]; · iexact H0
    isplitl [H1]; · iexact H1
    iintro ⟨H0, H1⟩
    isplitl [HΦ]; · iexact HΦ
    isplitl [HΩ]; · iexact HΩ
    isplitl [H0]; · iexact H0
    iexact H1

end Cert.Kernel.Body

end
-- ==== Proof.Kernel.Region0.lean ====
import proofs.«132601_j48773648613702_1_alg».proof.Proof.Kernel.Body

noncomputable section

namespace Cert.Kernel.Region0

open Cert.Kernel Cert.Kernel.Gen
open Idealize.ShloMosaic Idealize.ShloMosaic.TcCoe
open Idealize.SL Idealize.SL.RA Idealize.SL.BI Idealize.SL.BI.BIBase Idealize.SL.Sem
open scoped Idealize.SL.BI
open Idealize.ShloMosaic.Rounds
open Idealize.ShloMosaic.Pipeline (Dat BodyObligation)
open Cert.Kernel.Body

variable {F : FTy → Type} [FloatOps F]

variable (V : (c : Dev nD) → (b : Ref sig .tc) → Buf (Elt F) ((c : Thread nD τ).loc b))

/-- The point's coordinates read in the largest of the eight grids. -/
abbrev up (i : grid0.Coords) : grid7.Coords := fun a => Fin.castLE ((by decide : ∀ a : Fin 2, grid0.bound a ≤ grid7.bound a) a) (i a)

/-- The sum restarts exactly at the first point of each band. -/
theorem hcond : ∀ t : Fin cfg0.N, cond (up (grid0.coords t)) ↔ t.val % 1 = 0 :=
  (by decide +kernel : ∀ t : Fin grid0.N, cond (up (grid0.coords t)) ↔ t.val % 1 = 0)

abbrev msIn (t : Fin cfg0.N) : In := win0_0.stage (cfg0.slots t 0)
abbrev msOut (t : Fin cfg0.N) : Out := win0_1.stage (cfg0.slots t 1)

theorem body_up (t : Fin cfg0.N) : bodyAt0 (F := F) t
    = cc7__sum_seq_kernel (up (grid0.coords t)) (msIn t) (hstage0_0 ((cfg0.slots t 0).cast nbuf0_0)) (msOut t) (hstage0_1 ((cfg0.slots t 1).cast nbuf0_1)) := rfl

/-- After point `t` the input block is kept and the result block is the running sum. -/
def dat (c : Dev nD) : Dat τ (Elt F) Unit ℕ (UR sig nD τ) ℕ cfg0 c where
  A w := V c (Pipeline.arrRef spec0 w)
  after w t := match w with
    | ⟨0, _⟩ => iblk cfg0 V c 0 t
    | ⟨1, _⟩ => acc 1 (iblk cfg0 V c 0) t.val t.isLt
  Φ _ := Pipeline.ΦA spec0 c
  q _ := fullShare
  owed _ := 0

theorem before_in (c : Dev nD) (t : Fin cfg0.N) (d) : (dat V c).before 0 t d = iblk cfg0 V c 0 t :=
  ((dat V c).before_in_eq_fetched 0 rfl (fun _ => rfl) (fun _ _ _ => rfl) (fun _ => rfl) t d).trans rfl

theorem before_out_later (c : Dev nD) (t : Fin cfg0.N) (h0 : ¬t.val % 1 = 0) (d) :
    (dat V c).before 1 t d = acc 1 (iblk cfg0 V c 0) (t.val - 1) (Nat.lt_of_le_of_lt (Nat.sub_le _ _) t.isLt) := by
  exact absurd (Nat.mod_one _) h0

theorem body_obligation (c : Dev nD) : BodyObligation (dat (F := F) V c) (defs₀ (F := F)) Variants.none () Set.univ := fun t => by
  rw [bigSep_W0, bigSep_W0]
  show iprop(_ ∗ _ ∗ (∃ d, owns (c : Thread nD τ) (msIn t) fullShare ((dat V c).before 0 t d))
      ∗ (∃ d, owns (c : Thread nD τ) (msOut t) fullShare ((dat V c).before 1 t d))) ⊢ wp frame _ Set.univ (bodyAt0 t) _
  simp only [before_in]
  rw [body_up]
  exact wp_point c 1 (iblk cfg0 V c 0) t (up (grid0.coords t)) (hcond t) _ _ _ _ (fun d => (dat V c).before 1 t d)
    (fun h0 d => before_out_later V c t h0 d) _ _

end Cert.Kernel.Region0

end
-- ==== Proof.Kernel.Region1.lean ====
import proofs.«132601_j48773648613702_1_alg».proof.Proof.Kernel.Body

noncomputable section

namespace Cert.Kernel.Region1

open Cert.Kernel Cert.Kernel.Gen
open Idealize.ShloMosaic Idealize.ShloMosaic.TcCoe
open Idealize.SL Idealize.SL.RA Idealize.SL.BI Idealize.SL.BI.BIBase Idealize.SL.Sem
open scoped Idealize.SL.BI
open Idealize.ShloMosaic.Rounds
open Idealize.ShloMosaic.Pipeline (Dat BodyObligation)
open Cert.Kernel.Body

variable {F : FTy → Type} [FloatOps F]

variable (V : (c : Dev nD) → (b : Ref sig .tc) → Buf (Elt F) ((c : Thread nD τ).loc b))

/-- The point's coordinates read in the largest of the eight grids. -/
abbrev up (i : grid1.Coords) : grid7.Coords := fun a => Fin.castLE ((by decide : ∀ a : Fin 2, grid1.bound a ≤ grid7.bound a) a) (i a)

/-- The sum restarts exactly at the first point of each band. -/
theorem hcond : ∀ t : Fin cfg1.N, cond (up (grid1.coords t)) ↔ t.val % 2 = 0 :=
  (by decide +kernel : ∀ t : Fin grid1.N, cond (up (grid1.coords t)) ↔ t.val % 2 = 0)

abbrev msIn (t : Fin cfg1.N) : In := win1_0.stage (cfg1.slots t 0)
abbrev msOut (t : Fin cfg1.N) : Out := win1_1.stage (cfg1.slots t 1)

theorem body_up (t : Fin cfg1.N) : bodyAt1 (F := F) t
    = cc7__sum_seq_kernel (up (grid1.coords t)) (msIn t) (hstage1_0 ((cfg1.slots t 0).cast nbuf1_0)) (msOut t) (hstage1_1 ((cfg1.slots t 1).cast nbuf1_1)) := rfl

/-- After point `t` the input block is kept and the result block is the running sum. -/
def dat (c : Dev nD) : Dat τ (Elt F) Unit ℕ (UR sig nD τ) ℕ cfg1 c where
  A w := V c (Pipeline.arrRef spec1 w)
  after w t := match w with
    | ⟨0, _⟩ => iblk cfg1 V c 0 t
    | ⟨1, _⟩ => acc 2 (iblk cfg1 V c 0) t.val t.isLt
  Φ _ := Pipeline.ΦA spec1 c
  q _ := fullShare
  owed _ := 0

theorem before_in (c : Dev nD) (t : Fin cfg1.N) (d) : (dat V c).before 0 t d = iblk cfg1 V c 0 t :=
  ((dat V c).before_in_eq_fetched 0 rfl (fun _ => rfl) (fun _ _ _ => rfl) (fun _ => rfl) t d).trans rfl

theorem before_out_later (c : Dev nD) (t : Fin cfg1.N) (h0 : ¬t.val % 2 = 0) (d) :
    (dat V c).before 1 t d = acc 2 (iblk cfg1 V c 0) (t.val - 1) (Nat.lt_of_le_of_lt (Nat.sub_le _ _) t.isLt) := by
  have hN : t.val < 8 := lt_of_lt_of_eq t.isLt (show cfg1.N = 8 from N_1)
  rw [Dat.before_out_kept _ 1 rfl t (by omega) (Bool.eq_false_iff.mpr fun h => by have := (flush1_1 _).mp h; dsimp only at this; omega)
    (fun _ => rfl) (fun _ _ => rfl)]
  dsimp only [dat]

theorem body_obligation (c : Dev nD) : BodyObligation (dat (F := F) V c) (defs₀ (F := F)) Variants.none () Set.univ := fun t => by
  rw [bigSep_W1, bigSep_W1]
  show iprop(_ ∗ _ ∗ (∃ d, owns (c : Thread nD τ) (msIn t) fullShare ((dat V c).before 0 t d))
      ∗ (∃ d, owns (c : Thread nD τ) (msOut t) fullShare ((dat V c).before 1 t d))) ⊢ wp frame _ Set.univ (bodyAt1 t) _
  simp only [before_in]
  rw [body_up]
  exact wp_point c 2 (iblk cfg1 V c 0) t (up (grid1.coords t)) (hcond t) _ _ _ _ (fun d => (dat V c).before 1 t d)
    (fun h0 d => before_out_later V c t h0 d) _ _

end Cert.Kernel.Region1

end
-- ==== Proof.Kernel.Region2.lean ====
import proofs.«132601_j48773648613702_1_alg».proof.Proof.Kernel.Body

noncomputable section

namespace Cert.Kernel.Region2

open Cert.Kernel Cert.Kernel.Gen
open Idealize.ShloMosaic Idealize.ShloMosaic.TcCoe
open Idealize.SL Idealize.SL.RA Idealize.SL.BI Idealize.SL.BI.BIBase Idealize.SL.Sem
open scoped Idealize.SL.BI
open Idealize.ShloMosaic.Rounds
open Idealize.ShloMosaic.Pipeline (Dat BodyObligation)
open Cert.Kernel.Body

variable {F : FTy → Type} [FloatOps F]

variable (V : (c : Dev nD) → (b : Ref sig .tc) → Buf (Elt F) ((c : Thread nD τ).loc b))

/-- The point's coordinates read in the largest of the eight grids. -/
abbrev up (i : grid2.Coords) : grid7.Coords := fun a => Fin.castLE ((by decide : ∀ a : Fin 2, grid2.bound a ≤ grid7.bound a) a) (i a)

/-- The sum restarts exactly at the first point of each band. -/
theorem hcond : ∀ t : Fin cfg2.N, cond (up (grid2.coords t)) ↔ t.val % 3 = 0 :=
  (by decide +kernel : ∀ t : Fin grid2.N, cond (up (grid2.coords t)) ↔ t.val % 3 = 0)

abbrev msIn (t : Fin cfg2.N) : In := win2_0.stage (cfg2.slots t 0)
abbrev msOut (t : Fin cfg2.N) : Out := win2_1.stage (cfg2.slots t 1)

theorem body_up (t : Fin cfg2.N) : bodyAt2 (F := F) t
    = cc7__sum_seq_kernel (up (grid2.coords t)) (msIn t) (hstage2_0 ((cfg2.slots t 0).cast nbuf2_0)) (msOut t) (hstage2_1 ((cfg2.slots t 1).cast nbuf2_1)) := rfl

/-- After point `t` the input block is kept and the result block is the running sum. -/
def dat (c : Dev nD) : Dat τ (Elt F) Unit ℕ (UR sig nD τ) ℕ cfg2 c where
  A w := V c (Pipeline.arrRef spec2 w)
  after w t := match w with
    | ⟨0, _⟩ => iblk cfg2 V c 0 t
    | ⟨1, _⟩ => acc 3 (iblk cfg2 V c 0) t.val t.isLt
  Φ _ := Pipeline.ΦA spec2 c
  q _ := fullShare
  owed _ := 0

theorem before_in (c : Dev nD) (t : Fin cfg2.N) (d) : (dat V c).before 0 t d = iblk cfg2 V c 0 t :=
  ((dat V c).before_in_eq_fetched 0 rfl (fun _ => rfl) (fun _ _ _ => rfl) (fun _ => rfl) t d).trans rfl

theorem before_out_later (c : Dev nD) (t : Fin cfg2.N) (h0 : ¬t.val % 3 = 0) (d) :
    (dat V c).before 1 t d = acc 3 (iblk cfg2 V c 0) (t.val - 1) (Nat.lt_of_le_of_lt (Nat.sub_le _ _) t.isLt) := by
  have hN : t.val < 12 := lt_of_lt_of_eq t.isLt (show cfg2.N = 12 from N_2)
  rw [Dat.before_out_kept _ 1 rfl t (by omega) (Bool.eq_false_iff.mpr fun h => by have := (flush2_1 _).mp h; dsimp only at this; omega)
    (fun _ => rfl) (fun _ _ => rfl)]
  dsimp only [dat]

theorem body_obligation (c : Dev nD) : BodyObligation (dat (F := F) V c) (defs₀ (F := F)) Variants.none () Set.univ := fun t => by
  rw [bigSep_W2, bigSep_W2]
  show iprop(_ ∗ _ ∗ (∃ d, owns (c : Thread nD τ) (msIn t) fullShare ((dat V c).before 0 t d))
      ∗ (∃ d, owns (c : Thread nD τ) (msOut t) fullShare ((dat V c).before 1 t d))) ⊢ wp frame _ Set.univ (bodyAt2 t) _
  simp only [before_in]
  rw [body_up]
  exact wp_point c 3 (iblk cfg2 V c 0) t (up (grid2.coords t)) (hcond t) _ _ _ _ (fun d => (dat V c).before 1 t d)
    (fun h0 d => before_out_later V c t h0 d) _ _

end Cert.Kernel.Region2

end
-- ==== Proof.Kernel.Region3.lean ====
import proofs.«132601_j48773648613702_1_alg».proof.Proof.Kernel.Body

noncomputable section

namespace Cert.Kernel.Region3

open Cert.Kernel Cert.Kernel.Gen
open Idealize.ShloMosaic Idealize.ShloMosaic.TcCoe
open Idealize.SL Idealize.SL.RA Idealize.SL.BI Idealize.SL.BI.BIBase Idealize.SL.Sem
open scoped Idealize.SL.BI
open Idealize.ShloMosaic.Rounds
open Idealize.ShloMosaic.Pipeline (Dat BodyObligation)
open Cert.Kernel.Body

variable {F : FTy → Type} [FloatOps F]

variable (V : (c : Dev nD) → (b : Ref sig .tc) → Buf (Elt F) ((c : Thread nD τ).loc b))

/-- The point's coordinates read in the largest of the eight grids. -/
abbrev up (i : grid3.Coords) : grid7.Coords := fun a => Fin.castLE ((by decide : ∀ a : Fin 2, grid3.bound a ≤ grid7.bound a) a) (i a)

/-- The sum restarts exactly at the first point of each band. -/
theorem hcond : ∀ t : Fin cfg3.N, cond (up (grid3.coords t)) ↔ t.val % 4 = 0 :=
  (by decide +kernel : ∀ t : Fin grid3.N, cond (up (grid3.coords t)) ↔ t.val % 4 = 0)

abbrev msIn (t : Fin cfg3.N) : In := win3_0.stage (cfg3.slots t 0)
abbrev msOut (t : Fin cfg3.N) : Out := win3_1.stage (cfg3.slots t 1)

theorem body_up (t : Fin cfg3.N) : bodyAt3 (F := F) t
    = cc7__sum_seq_kernel (up (grid3.coords t)) (msIn t) (hstage3_0 ((cfg3.slots t 0).cast nbuf3_0)) (msOut t) (hstage3_1 ((cfg3.slots t 1).cast nbuf3_1)) := rfl

/-- After point `t` the input block is kept and the result block is the running sum. -/
def dat (c : Dev nD) : Dat τ (Elt F) Unit ℕ (UR sig nD τ) ℕ cfg3 c where
  A w := V c (Pipeline.arrRef spec3 w)
  after w t := match w with
    | ⟨0, _⟩ => iblk cfg3 V c 0 t
    | ⟨1, _⟩ => acc 4 (iblk cfg3 V c 0) t.val t.isLt
  Φ _ := Pipeline.ΦA spec3 c
  q _ := fullShare
  owed _ := 0

theorem before_in (c : Dev nD) (t : Fin cfg3.N) (d) : (dat V c).before 0 t d = iblk cfg3 V c 0 t :=
  ((dat V c).before_in_eq_fetched 0 rfl (fun _ => rfl) (fun _ _ _ => rfl) (fun _ => rfl) t d).trans rfl

theorem before_out_later (c : Dev nD) (t : Fin cfg3.N) (h0 : ¬t.val % 4 = 0) (d) :
    (dat V c).before 1 t d = acc 4 (iblk cfg3 V c 0) (t.val - 1) (Nat.lt_of_le_of_lt (Nat.sub_le _ _) t.isLt) := by
  have hN : t.val < 16 := lt_of_lt_of_eq t.isLt (show cfg3.N = 16 from N_3)
  rw [Dat.before_out_kept _ 1 rfl t (by omega) (Bool.eq_false_iff.mpr fun h => by have := (flush3_1 _).mp h; dsimp only at this; omega)
    (fun _ => rfl) (fun _ _ => rfl)]
  dsimp only [dat]

theorem body_obligation (c : Dev nD) : BodyObligation (dat (F := F) V c) (defs₀ (F := F)) Variants.none () Set.univ := fun t => by
  rw [bigSep_W3, bigSep_W3]
  show iprop(_ ∗ _ ∗ (∃ d, owns (c : Thread nD τ) (msIn t) fullShare ((dat V c).before 0 t d))
      ∗ (∃ d, owns (c : Thread nD τ) (msOut t) fullShare ((dat V c).before 1 t d))) ⊢ wp frame _ Set.univ (bodyAt3 t) _
  simp only [before_in]
  rw [body_up]
  exact wp_point c 4 (iblk cfg3 V c 0) t (up (grid3.coords t)) (hcond t) _ _ _ _ (fun d => (dat V c).before 1 t d)
    (fun h0 d => before_out_later V c t h0 d) _ _

end Cert.Kernel.Region3

end
-- ==== Proof.Kernel.Region4.lean ====
import proofs.«132601_j48773648613702_1_alg».proof.Proof.Kernel.Body

noncomputable section

namespace Cert.Kernel.Region4

open Cert.Kernel Cert.Kernel.Gen
open Idealize.ShloMosaic Idealize.ShloMosaic.TcCoe
open Idealize.SL Idealize.SL.RA Idealize.SL.BI Idealize.SL.BI.BIBase Idealize.SL.Sem
open scoped Idealize.SL.BI
open Idealize.ShloMosaic.Rounds
open Idealize.ShloMosaic.Pipeline (Dat BodyObligation)
open Cert.Kernel.Body

variable {F : FTy → Type} [FloatOps F]

variable (V : (c : Dev nD) → (b : Ref sig .tc) → Buf (Elt F) ((c : Thread nD τ).loc b))

/-- The point's coordinates read in the largest of the eight grids. -/
abbrev up (i : grid4.Coords) : grid7.Coords := fun a => Fin.castLE ((by decide : ∀ a : Fin 2, grid4.bound a ≤ grid7.bound a) a) (i a)

/-- The sum restarts exactly at the first point of each band. -/
theorem hcond : ∀ t : Fin cfg4.N, cond (up (grid4.coords t)) ↔ t.val % 5 = 0 :=
  (by decide +kernel : ∀ t : Fin grid4.N, cond (up (grid4.coords t)) ↔ t.val % 5 = 0)

abbrev msIn (t : Fin cfg4.N) : In := win4_0.stage (cfg4.slots t 0)
abbrev msOut (t : Fin cfg4.N) : Out := win4_1.stage (cfg4.slots t 1)

theorem body_up (t : Fin cfg4.N) : bodyAt4 (F := F) t
    = cc7__sum_seq_kernel (up (grid4.coords t)) (msIn t) (hstage4_0 ((cfg4.slots t 0).cast nbuf4_0)) (msOut t) (hstage4_1 ((cfg4.slots t 1).cast nbuf4_1)) := rfl

/-- After point `t` the input block is kept and the result block is the running sum. -/
def dat (c : Dev nD) : Dat τ (Elt F) Unit ℕ (UR sig nD τ) ℕ cfg4 c where
  A w := V c (Pipeline.arrRef spec4 w)
  after w t := match w with
    | ⟨0, _⟩ => iblk cfg4 V c 0 t
    | ⟨1, _⟩ => acc 5 (iblk cfg4 V c 0) t.val t.isLt
  Φ _ := Pipeline.ΦA spec4 c
  q _ := fullShare
  owed _ := 0

theorem before_in (c : Dev nD) (t : Fin cfg4.N) (d) : (dat V c).before 0 t d = iblk cfg4 V c 0 t :=
  ((dat V c).before_in_eq_fetched 0 rfl (fun _ => rfl) (fun _ _ _ => rfl) (fun _ => rfl) t d).trans rfl

theorem before_out_later (c : Dev nD) (t : Fin cfg4.N) (h0 : ¬t.val % 5 = 0) (d) :
    (dat V c).before 1 t d = acc 5 (iblk cfg4 V c 0) (t.val - 1) (Nat.lt_of_le_of_lt (Nat.sub_le _ _) t.isLt) := by
  have hN : t.val < 20 := lt_of_lt_of_eq t.isLt (show cfg4.N = 20 from N_4)
  rw [Dat.before_out_kept _ 1 rfl t (by omega) (Bool.eq_false_iff.mpr fun h => by have := (flush4_1 _).mp h; dsimp only at this; omega)
    (fun _ => rfl) (fun _ _ => rfl)]
  dsimp only [dat]

theorem body_obligation (c : Dev nD) : BodyObligation (dat (F := F) V c) (defs₀ (F := F)) Variants.none () Set.univ := fun t => by
  rw [bigSep_W4, bigSep_W4]
  show iprop(_ ∗ _ ∗ (∃ d, owns (c : Thread nD τ) (msIn t) fullShare ((dat V c).before 0 t d))
      ∗ (∃ d, owns (c : Thread nD τ) (msOut t) fullShare ((dat V c).before 1 t d))) ⊢ wp frame _ Set.univ (bodyAt4 t) _
  simp only [before_in]
  rw [body_up]
  exact wp_point c 5 (iblk cfg4 V c 0) t (up (grid4.coords t)) (hcond t) _ _ _ _ (fun d => (dat V c).before 1 t d)
    (fun h0 d => before_out_later V c t h0 d) _ _

end Cert.Kernel.Region4

end
-- ==== Proof.Kernel.Region5.lean ====
import proofs.«132601_j48773648613702_1_alg».proof.Proof.Kernel.Body

noncomputable section

namespace Cert.Kernel.Region5

open Cert.Kernel Cert.Kernel.Gen
open Idealize.ShloMosaic Idealize.ShloMosaic.TcCoe
open Idealize.SL Idealize.SL.RA Idealize.SL.BI Idealize.SL.BI.BIBase Idealize.SL.Sem
open scoped Idealize.SL.BI
open Idealize.ShloMosaic.Rounds
open Idealize.ShloMosaic.Pipeline (Dat BodyObligation)
open Cert.Kernel.Body

variable {F : FTy → Type} [FloatOps F]

variable (V : (c : Dev nD) → (b : Ref sig .tc) → Buf (Elt F) ((c : Thread nD τ).loc b))

/-- The point's coordinates read in the largest of the eight grids. -/
abbrev up (i : grid5.Coords) : grid7.Coords := fun a => Fin.castLE ((by decide : ∀ a : Fin 2, grid5.bound a ≤ grid7.bound a) a) (i a)

/-- The sum restarts exactly at the first point of each band. -/
theorem hcond : ∀ t : Fin cfg5.N, cond (up (grid5.coords t)) ↔ t.val % 6 = 0 :=
  (by decide +kernel : ∀ t : Fin grid5.N, cond (up (grid5.coords t)) ↔ t.val % 6 = 0)

abbrev msIn (t : Fin cfg5.N) : In := win5_0.stage (cfg5.slots t 0)
abbrev msOut (t : Fin cfg5.N) : Out := win5_1.stage (cfg5.slots t 1)

theorem body_up (t : Fin cfg5.N) : bodyAt5 (F := F) t
    = cc7__sum_seq_kernel (up (grid5.coords t)) (msIn t) (hstage5_0 ((cfg5.slots t 0).cast nbuf5_0)) (msOut t) (hstage5_1 ((cfg5.slots t 1).cast nbuf5_1)) := rfl

/-- After point `t` the input block is kept and the result block is the running sum. -/
def dat (c : Dev nD) : Dat τ (Elt F) Unit ℕ (UR sig nD τ) ℕ cfg5 c where
  A w := V c (Pipeline.arrRef spec5 w)
  after w t := match w with
    | ⟨0, _⟩ => iblk cfg5 V c 0 t
    | ⟨1, _⟩ => acc 6 (iblk cfg5 V c 0) t.val t.isLt
  Φ _ := Pipeline.ΦA spec5 c
  q _ := fullShare
  owed _ := 0

theorem before_in (c : Dev nD) (t : Fin cfg5.N) (d) : (dat V c).before 0 t d = iblk cfg5 V c 0 t :=
  ((dat V c).before_in_eq_fetched 0 rfl (fun _ => rfl) (fun _ _ _ => rfl) (fun _ => rfl) t d).trans rfl

theorem before_out_later (c : Dev nD) (t : Fin cfg5.N) (h0 : ¬t.val % 6 = 0) (d) :
    (dat V c).before 1 t d = acc 6 (iblk cfg5 V c 0) (t.val - 1) (Nat.lt_of_le_of_lt (Nat.sub_le _ _) t.isLt) := by
  have hN : t.val < 24 := lt_of_lt_of_eq t.isLt (show cfg5.N = 24 from N_5)
  rw [Dat.before_out_kept _ 1 rfl t (by omega) (Bool.eq_false_iff.mpr fun h => by have := (flush5_1 _).mp h; dsimp only at this; omega)
    (fun _ => rfl) (fun _ _ => rfl)]
  dsimp only [dat]

theorem body_obligation (c : Dev nD) : BodyObligation (dat (F := F) V c) (defs₀ (F := F)) Variants.none () Set.univ := fun t => by
  rw [bigSep_W5, bigSep_W5]
  show iprop(_ ∗ _ ∗ (∃ d, owns (c : Thread nD τ) (msIn t) fullShare ((dat V c).before 0 t d))
      ∗ (∃ d, owns (c : Thread nD τ) (msOut t) fullShare ((dat V c).before 1 t d))) ⊢ wp frame _ Set.univ (bodyAt5 t) _
  simp only [before_in]
  rw [body_up]
  exact wp_point c 6 (iblk cfg5 V c 0) t (up (grid5.coords t)) (hcond t) _ _ _ _ (fun d => (dat V c).before 1 t d)
    (fun h0 d => before_out_later V c t h0 d) _ _

end Cert.Kernel.Region5

end
-- ==== Proof.Kernel.Region6.lean ====
import proofs.«132601_j48773648613702_1_alg».proof.Proof.Kernel.Body

noncomputable section

namespace Cert.Kernel.Region6

open Cert.Kernel Cert.Kernel.Gen
open Idealize.ShloMosaic Idealize.ShloMosaic.TcCoe
open Idealize.SL Idealize.SL.RA Idealize.SL.BI Idealize.SL.BI.BIBase Idealize.SL.Sem
open scoped Idealize.SL.BI
open Idealize.ShloMosaic.Rounds
open Idealize.ShloMosaic.Pipeline (Dat BodyObligation)
open Cert.Kernel.Body

variable {F : FTy → Type} [FloatOps F]

variable (V : (c : Dev nD) → (b : Ref sig .tc) → Buf (Elt F) ((c : Thread nD τ).loc b))

/-- The point's coordinates read in the largest of the eight grids. -/
abbrev up (i : grid6.Coords) : grid7.Coords := fun a => Fin.castLE ((by decide : ∀ a : Fin 2, grid6.bound a ≤ grid7.bound a) a) (i a)

/-- The sum restarts exactly at the first point of each band. -/
theorem hcond : ∀ t : Fin cfg6.N, cond (up (grid6.coords t)) ↔ t.val % 7 = 0 :=
  (by decide +kernel : ∀ t : Fin grid6.N, cond (up (grid6.coords t)) ↔ t.val % 7 = 0)

abbrev msIn (t : Fin cfg6.N) : In := win6_0.stage (cfg6.slots t 0)
abbrev msOut (t : Fin cfg6.N) : Out := win6_1.stage (cfg6.slots t 1)

theorem body_up (t : Fin cfg6.N) : bodyAt6 (F := F) t
    = cc7__sum_seq_kernel (up (grid6.coords t)) (msIn t) (hstage6_0 ((cfg6.slots t 0).cast nbuf6_0)) (msOut t) (hstage6_1 ((cfg6.slots t 1).cast nbuf6_1)) := rfl

/-- After point `t` the input block is kept and the result block is the running sum. -/
def dat (c : Dev nD) : Dat τ (Elt F) Unit ℕ (UR sig nD τ) ℕ cfg6 c where
  A w := V c (Pipeline.arrRef spec6 w)
  after w t := match w with
    | ⟨0, _⟩ => iblk cfg6 V c 0 t
    | ⟨1, _⟩ => acc 7 (iblk cfg6 V c 0) t.val t.isLt
  Φ _ := Pipeline.ΦA spec6 c
  q _ := fullShare
  owed _ := 0

theorem before_in (c : Dev nD) (t : Fin cfg6.N) (d) : (dat V c).before 0 t d = iblk cfg6 V c 0 t :=
  ((dat V c).before_in_eq_fetched 0 rfl (fun _ => rfl) (fun _ _ _ => rfl) (fun _ => rfl) t d).trans rfl

theorem before_out_later (c : Dev nD) (t : Fin cfg6.N) (h0 : ¬t.val % 7 = 0) (d) :
    (dat V c).before 1 t d = acc 7 (iblk cfg6 V c 0) (t.val - 1) (Nat.lt_of_le_of_lt (Nat.sub_le _ _) t.isLt) := by
  have hN : t.val < 28 := lt_of_lt_of_eq t.isLt (show cfg6.N = 28 from N_6)
  rw [Dat.before_out_kept _ 1 rfl t (by omega) (Bool.eq_false_iff.mpr fun h => by have := (flush6_1 _).mp h; dsimp only at this; omega)
    (fun _ => rfl) (fun _ _ => rfl)]
  dsimp only [dat]

theorem body_obligation (c : Dev nD) : BodyObligation (dat (F := F) V c) (defs₀ (F := F)) Variants.none () Set.univ := fun t => by
  rw [bigSep_W6, bigSep_W6]
  show iprop(_ ∗ _ ∗ (∃ d, owns (c : Thread nD τ) (msIn t) fullShare ((dat V c).before 0 t d))
      ∗ (∃ d, owns (c : Thread nD τ) (msOut t) fullShare ((dat V c).before 1 t d))) ⊢ wp frame _ Set.univ (bodyAt6 t) _
  simp only [before_in]
  rw [body_up]
  exact wp_point c 7 (iblk cfg6 V c 0) t (up (grid6.coords t)) (hcond t) _ _ _ _ (fun d => (dat V c).before 1 t d)
    (fun h0 d => before_out_later V c t h0 d) _ _

end Cert.Kernel.Region6

end
-- ==== Proof.Kernel.Region7.lean ====
import proofs.«132601_j48773648613702_1_alg».proof.Proof.Kernel.Body

noncomputable section

namespace Cert.Kernel.Region7

open Cert.Kernel Cert.Kernel.Gen
open Idealize.ShloMosaic Idealize.ShloMosaic.TcCoe
open Idealize.SL Idealize.SL.RA Idealize.SL.BI Idealize.SL.BI.BIBase Idealize.SL.Sem
open scoped Idealize.SL.BI
open Idealize.ShloMosaic.Rounds
open Idealize.ShloMosaic.Pipeline (Dat BodyObligation)
open Cert.Kernel.Body

variable {F : FTy → Type} [FloatOps F]

variable (V : (c : Dev nD) → (b : Ref sig .tc) → Buf (Elt F) ((c : Thread nD τ).loc b))

/-- The point's coordinates read in the largest of the eight grids. -/
abbrev up (i : grid7.Coords) : grid7.Coords := fun a => Fin.castLE ((by decide : ∀ a : Fin 2, grid7.bound a ≤ grid7.bound a) a) (i a)

/-- The sum restarts exactly at the first point of each band. -/
theorem hcond : ∀ t : Fin cfg7.N, cond (up (grid7.coords t)) ↔ t.val % 8 = 0 :=
  (by decide +kernel : ∀ t : Fin grid7.N, cond (up (grid7.coords t)) ↔ t.val % 8 = 0)

abbrev msIn (t : Fin cfg7.N) : In := win7_0.stage (cfg7.slots t 0)
abbrev msOut (t : Fin cfg7.N) : Out := win7_1.stage (cfg7.slots t 1)

theorem body_up (t : Fin cfg7.N) : bodyAt7 (F := F) t
    = cc7__sum_seq_kernel (up (grid7.coords t)) (msIn t) (hstage7_0 ((cfg7.slots t 0).cast nbuf7_0)) (msOut t) (hstage7_1 ((cfg7.slots t 1).cast nbuf7_1)) := rfl

/-- After point `t` the input block is kept and the result block is the running sum. -/
def dat (c : Dev nD) : Dat τ (Elt F) Unit ℕ (UR sig nD τ) ℕ cfg7 c where
  A w := V c (Pipeline.arrRef spec7 w)
  after w t := match w with
    | ⟨0, _⟩ => iblk cfg7 V c 0 t
    | ⟨1, _⟩ => acc 8 (iblk cfg7 V c 0) t.val t.isLt
  Φ _ := Pipeline.ΦA spec7 c
  q _ := fullShare
  owed _ := 0

theorem before_in (c : Dev nD) (t : Fin cfg7.N) (d) : (dat V c).before 0 t d = iblk cfg7 V c 0 t :=
  ((dat V c).before_in_eq_fetched 0 rfl (fun _ => rfl) (fun _ _ _ => rfl) (fun _ => rfl) t d).trans rfl

theorem before_out_later (c : Dev nD) (t : Fin cfg7.N) (h0 : ¬t.val % 8 = 0) (d) :
    (dat V c).before 1 t d = acc 8 (iblk cfg7 V c 0) (t.val - 1) (Nat.lt_of_le_of_lt (Nat.sub_le _ _) t.isLt) := by
  have hN : t.val < 32 := lt_of_lt_of_eq t.isLt (show cfg7.N = 32 from N_7)
  rw [Dat.before_out_kept _ 1 rfl t (by omega) (Bool.eq_false_iff.mpr fun h => by have := (flush7_1 _).mp h; dsimp only at this; omega)
    (fun _ => rfl) (fun _ _ => rfl)]
  dsimp only [dat]

theorem body_obligation (c : Dev nD) : BodyObligation (dat (F := F) V c) (defs₀ (F := F)) Variants.none () Set.univ := fun t => by
  rw [bigSep_W7, bigSep_W7]
  show iprop(_ ∗ _ ∗ (∃ d, owns (c : Thread nD τ) (msIn t) fullShare ((dat V c).before 0 t d))
      ∗ (∃ d, owns (c : Thread nD τ) (msOut t) fullShare ((dat V c).before 1 t d))) ⊢ wp frame _ Set.univ (bodyAt7 t) _
  simp only [before_in]
  rw [body_up]
  exact wp_point c 8 (iblk cfg7 V c 0) t (up (grid7.coords t)) (hcond t) _ _ _ _ (fun d => (dat V c).before 1 t d)
    (fun h0 d => before_out_later V c t h0 d) _ _

end Cert.Kernel.Region7

end
-- ==== Proof.Kernel.Fold.lean ====
import proofs.«132601_j48773648613702_1_alg».proof.Proof.Kernel.Region0
import proofs.«132601_j48773648613702_1_alg».proof.Proof.Kernel.Region1
import proofs.«132601_j48773648613702_1_alg».proof.Proof.Kernel.Region2
import proofs.«132601_j48773648613702_1_alg».proof.Proof.Kernel.Region3
import proofs.«132601_j48773648613702_1_alg».proof.Proof.Kernel.Region4
import proofs.«132601_j48773648613702_1_alg».proof.Proof.Kernel.Region5
import proofs.«132601_j48773648613702_1_alg».proof.Proof.Kernel.Region6
import proofs.«132601_j48773648613702_1_alg».proof.Proof.Kernel.Region7
import proofs.«132601_j48773648613702_1_alg».proof.Proof.Gen.Kernel.Regions
import Idealize.ShloMosaic.Lib.StableHlo.Run

noncomputable section

namespace Cert.Kernel.Fold

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A core's buffers read at its references. -/
abbrev Ent (F : FTy → Type) : Type := (c : Dev nD) → (b : Ref sig .tc) → Buf (Elt F) ((c : Thread nD τ).loc b)

abbrev spec (p : Fin 8) : Fin (cfgs p).W → Pipeline.WinSpec sig (cfgs p).grid.rank := fun w => ((cfgs p).win w).toWinSpec

theorem launch : (p : Fin 8) → Pipeline.LaunchFacts (nD := nD) (τ := τ) cfgs p
  | ⟨0, _⟩ => launch0
  | ⟨1, _⟩ => launch1
  | ⟨2, _⟩ => launch2
  | ⟨3, _⟩ => launch3
  | ⟨4, _⟩ => launch4
  | ⟨5, _⟩ => launch5
  | ⟨6, _⟩ => launch6
  | ⟨7, _⟩ => launch7

def after (V : Ent F) : (p : Fin 8) → (c : Dev nD) → (w : Fin (cfgs p).W) → Fin (cfgs p).N → ((cfgs p).win w).block.Idx → Elt F ((cfgs p).win w).elt
  | ⟨0, _⟩, c => (Region0.dat V c).after
  | ⟨1, _⟩, c => (Region1.dat V c).after
  | ⟨2, _⟩, c => (Region2.dat V c).after
  | ⟨3, _⟩, c => (Region3.dat V c).after
  | ⟨4, _⟩, c => (Region4.dat V c).after
  | ⟨5, _⟩, c => (Region5.dat V c).after
  | ⟨6, _⟩, c => (Region6.dat V c).after
  | ⟨7, _⟩, c => (Region7.dat V c).after

/-- The eight regions' proof data as one family, at the entry contents `V`. -/
def dat (V : Ent F) (p : Fin 8) (c : Dev nD) : Dat τ (Elt F) Unit ℕ (UR sig nD τ) ℕ (cfgs p) c where
  A w := V c (Pipeline.arrRef (spec p) w)
  after := after V p c
  Φ _ := Pipeline.ΦA (spec p) c
  q _ := fullShare
  owed _ := 0

theorem body_obligation (V : Ent F) : (p : Fin 8) → (c : Dev nD) → BodyObligation (dat V p c) (defs₀ (F := F)) Variants.none () Set.univ
  | ⟨0, _⟩, c => Region0.body_obligation V c
  | ⟨1, _⟩, c => Region1.body_obligation V c
  | ⟨2, _⟩, c => Region2.body_obligation V c
  | ⟨3, _⟩, c => Region3.body_obligation V c
  | ⟨4, _⟩, c => Region4.body_obligation V c
  | ⟨5, _⟩, c => Region5.body_obligation V c
  | ⟨6, _⟩, c => Region6.body_obligation V c
  | ⟨7, _⟩, c => Region7.body_obligation V c

variable (m : (ℓ : Loc nD τ sig) → Buf (Elt F) ℓ)

/-- The buffers after the first `k` regions: a region changes its own arrays only, from the contents it was entered with. -/
def W : ℕ → Dev nD → Valuation τ sig (Elt F)
  | 0, c => fun b => m ((c : Dev nD), b)
  | k + 1, c =>
    if h : k < 8 then Pipeline.withArrays (spec ⟨k, h⟩) c (W k c) fun w => (dat (fun c b => W k c b) ⟨k, h⟩ c).arrAt w (cfgs ⟨k, h⟩).N
    else W k c

abbrev E (k : ℕ) : Ent F := fun c b => W m k c b

theorem W_succ (p : Fin 8) (c : Dev nD) :
    W m (p.val + 1) c = Pipeline.withArrays (spec p) c (W m p.val c) fun w => (dat (E m p.val) p c).arrAt w (cfgs p).N := by
  rw [W, dif_pos p.isLt]

theorem W_arr (p : Fin 8) (c : Dev nD) (w : Fin (cfgs p).W) :
    W m (p.val + 1) c (Proc.devRef .tc (Pipeline.arrRef (spec p) w)) = (dat (E m p.val) p c).arrAt w (cfgs p).N := by
  rw [W_succ]; exact Pipeline.withArrays_arr (spec p) (launch p).win.arr_inj c _ _ w

theorem W_of_ne (p : Fin 8) (c : Dev nD) (b : Ref sig .tc) (hb : ∀ w, Pipeline.arrRef (spec p) w ≠ b) :
    W m (p.val + 1) c (Proc.devRef .tc b) = W m p.val c (Proc.devRef .tc b) := by
  rw [W_succ]; exact Pipeline.withArrays_of_ne (spec p) c _ _ b hb

theorem hrest (p : Fin 8) (c : Dev nD) : ∀ b, b ∉ Finset.univ.image (Pipeline.arrRef (spec p)) → E m (p.val + 1) c b = E m p.val c b :=
  fun b hb => W_of_ne m p c b fun w e => hb (Finset.mem_image.mpr ⟨w, Finset.mem_univ _, e⟩)

/-- A buffer that is the result array of no region from `k₀` on keeps its contents: an input array is handed back as it was. -/
theorem W_keep (c : Dev nD) (b : Ref sig .tc) (k₀ : ℕ)
    (h : ∀ p : Fin 8, k₀ ≤ p.val → ∀ w, ((cfgs p).win w).isOut = true → Pipeline.arrRef (spec p) w ≠ b) :
    ∀ k, k₀ ≤ k → W m k c (Proc.devRef .tc b) = W m k₀ c (Proc.devRef .tc b) := by
  intro k hk
  induction k, hk using Nat.le_induction with
  | base => rfl
  | succ k hk ih =>
    refine Eq.trans ?_ ih
    by_cases h8 : k < 8
    · by_cases hw : ∃ w, Pipeline.arrRef (spec ⟨k, h8⟩) w = b
      · obtain ⟨w, rfl⟩ := hw
        have hin : ((cfgs ⟨k, h8⟩).win w).isOut = false := by
          cases ho : ((cfgs ⟨k, h8⟩).win w).isOut
          · rfl
          · exact absurd rfl (h ⟨k, h8⟩ hk w ho)
        exact (W_arr m ⟨k, h8⟩ c w).trans ((dat (E m k) ⟨k, h8⟩ c).arrAt_in w hin _)
      · exact W_of_ne m ⟨k, h8⟩ c b fun w e => hw ⟨w, e⟩
    · rw [W, dif_neg h8]

/-- The buffers at the end of the program. -/
abbrev W9 : Dev nD → Valuation τ sig (Elt F) := fun c => StableHlo.after hostOps8 (W m 8 c)

/-- An argument array is written by no item, so it ends as launched. -/
theorem W9_arg (c : Dev nD) (b : Ref sig .tc) (hb : b ∉ hostOps8_W)
    (h : ∀ p : Fin 8, 0 ≤ p.val → ∀ w, ((cfgs p).win w).isOut = true → Pipeline.arrRef (spec p) w ≠ b) :
    W9 m c (Proc.devRef .tc b) = m ((c : Thread nD τ).loc b) :=
  (StableHlo.after_of_writes_sub hostOps8 _ hostOps8_writes hb).trans (W_keep m c b 0 h 8 (Nat.zero_le _))

/-- The eight result arrays after the regions, concatenated. -/
def outcome (c : Dev nD) : Vec F S512x1024 .f32 :=
  concatenate S512x1024 1 [⟨S512x128, W m 8 c (Proc.devRef .tc main_v0)⟩, ⟨S512x128, W m 8 c (Proc.devRef .tc main_v1)⟩, ⟨S512x128, W m 8 c (Proc.devRef .tc main_v2)⟩, ⟨S512x128, W m 8 c (Proc.devRef .tc main_v3)⟩, ⟨S512x128, W m 8 c (Proc.devRef .tc main_v4)⟩, ⟨S512x128, W m 8 c (Proc.devRef .tc main_v5)⟩, ⟨S512x128, W m 8 c (Proc.devRef .tc main_v6)⟩, ⟨S512x128, W m 8 c (Proc.devRef .tc main_v7)⟩] concatenates_S512x128_S512x128_S512x128_S512x128_S512x128_S512x128_S512x128_S512x128_S512x1024_d1

theorem W9_v8 (c : Dev nD) : W9 m c (Proc.devRef .tc main_v8) = outcome m c := by
  show StableHlo.after hostOps8 _ (Proc.devRef .tc main_v8) = _
  after_results
  rfl

def pdats (p : Fin 8) (c : Dev nD) : Dat τ (Elt F) Unit ℕ (UR sig nD τ) ℕ (cfgs p) c := dat (E m p.val) p c
abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

end Cert.Kernel.Fold

end
-- ==== Proof.Kernel.Seg.lean ====
import proofs.«132601_j48773648613702_1_alg».proof.Proof.Kernel.Fold

noncomputable section

namespace Cert.Kernel.Seg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Fold

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region `p` as an item of the program, from the buffers at `W p` to the buffers at `W (p + 1)`. -/
def reg (p : Fin 8) : Pipeline.RegionSeg (pcfgs (F := F)) adm (pdats m) () defs₀ 𝒱₀ L lv p where
  win := (launch p).win.to₀
  block_pos := (launch p).block_pos
  stage_whole := (launch p).stage_whole
  K := PEmpty
  osem k := k.elim
  ho := Pipeline.OwnSemFacts.none _
  hbody c := (body_obligation (E m p.val) p c).loose
  hwaits := Pipeline.hwaits_of_owed_zero _ _ _ _ L lv p fun _ _ => rfl
  pre c := iprop(StableHlo.held (c : Thread nD τ) (Pipeline.ucRefs τ sig) (W m p.val c) ∗ R c)
  post c := iprop(StableHlo.held (c : Thread nD τ) (Pipeline.ucRefs τ sig) (W m (p.val + 1) c) ∗ R c)
  X c := iprop(∃ r, prngReg c r)
  Y c := iprop(∃ r, prngReg c r)
  Z c := Pipeline.unscopedRest (Ix := Unit) (Name := ℕ) (U := UR sig nD τ) (Lvl := ℕ) (spec p) c (E m p.val c)
  hentry c := by
    rw [Pipeline.ownSems0_none]
    have hsplit := Pipeline.arrays_of_unscopedBufs (p := p) (pcfgs (F := F)) adm (pdats m) (launch p).win (launch p).arr_whole c
      ((pdats m p c).share_full fun _ => rfl) (E m p.val c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m p c).Φ 0 = Pipeline.ΦA (spec p) c from rfl]; unfold Pipeline.ΦA
    iintro ⟨Hp, -, Hr⟩
    isplitl [Hr]; · iexact Hr
    iexact Hp
  hout c := by
    rw [Pipeline.ownSems0_none, show (pdats m p c).Φ (Fin.last _) = Pipeline.ΦA (spec p) c from rfl]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      (launch p).win (launch p).arr_whole c (pdats m) ((pdats m p c).share_full fun _ => rfl)
      (E m p.val c) (E m (p.val + 1) c) ((pdats m p c).arrAt · (cfgs p).N) (fun w => (W_arr m p c w).symm) (hrest m p c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Seg

end
-- ==== Proof.Kernel.Run.lean ====
import proofs.«132601_j48773648613702_1_alg».proof.Proof.Kernel.Seg

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Fold

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev hseg8 : Pipeline.HostSeg (Name := ℕ) (U := UR sig nD τ) (pcfgs (F := F)) defs₀ 𝒱₀ L lv :=
  Pipeline.HostSeg.ofOps _ _ _ _ _ (Pipeline.ucRefs τ sig) hostOps8
    (fun op h => Pipeline.sub_ucRefs op ((List.forall_iff_forall_mem.mp hostOps8_sub) op h))
    (fun op h => (List.forall_iff_forall_mem.mp hostOps8_fresh) op h) (W m 8) R

abbrev segs : List (Pipeline.Seg (pcfgs (F := F)) adm (pdats m) () defs₀ 𝒱₀ L lv) :=
  [.region (Seg.reg m 0), .region (Seg.reg m 1), .region (Seg.reg m 2), .region (Seg.reg m 3), .region (Seg.reg m 4), .region (Seg.reg m 5), .region (Seg.reg m 6), .region (Seg.reg m 7), .host (hseg8 m)]

theorem main_run (c : Dev nD) : main (F := F) c = Pipeline.Seg.run (segs m) := (main_chain c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W9 m c) ∗ ∃ r, prngReg c r)

set_option backward.isDefEq.respectTransparency.types false in
/-- The program runs to its end, the core's buffers then at `W9`. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W9 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W m 0 c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun c =>
      (show iprop(StableHlo.held (c : Thread nD τ) (Pipeline.ucRefs τ sig) (W9 m c) ∗ R c)
          ⊢ iprop(Tₙ m c ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W m 0 c)
        from Pipeline.unscopedBufs_held c (W m 0 c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h c => h c)

/-- Read at `main_v8` and at the arguments. -/
theorem result : θ_run defs (onTc (τ := τ) (main (F := F))) ⟨m, fun _ => 0, ρ⟩ (fun r => ∀ c : Dev nD,
      r.2.mem ((c.tc : Thread nD τ).loc main_v8) = outcome m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c _ (mem_uc main_v8 (by decide))).trans (W9_v8 m c),
    (h c _ (mem_uc main_arg0 (by decide))).trans (W9_arg m c main_arg0 (by decide) (by decide)),
    (h c _ (mem_uc main_arg1 (by decide))).trans (W9_arg m c main_arg1 (by decide) (by decide)),
    (h c _ (mem_uc main_arg2 (by decide))).trans (W9_arg m c main_arg2 (by decide) (by decide)),
    (h c _ (mem_uc main_arg3 (by decide))).trans (W9_arg m c main_arg3 (by decide) (by decide)),
    (h c _ (mem_uc main_arg4 (by decide))).trans (W9_arg m c main_arg4 (by decide) (by decide)),
    (h c _ (mem_uc main_arg5 (by decide))).trans (W9_arg m c main_arg5 (by decide) (by decide)),
    (h c _ (mem_uc main_arg6 (by decide))).trans (W9_arg m c main_arg6 (by decide) (by decide)),
    (h c _ (mem_uc main_arg7 (by decide))).trans (W9_arg m c main_arg7 (by decide) (by decide))⟩) (run_all m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => (h c).2) (result m ρ)

end Cert.Kernel.Run

end
-- ==== Proof.KernelIdeal.Body.lean ====
import proofs.«132601_j48773648613702_1_alg».proof.Proof.Gen.KernelIdeal.Launch
import proofs.«132601_j48773648613702_1_alg».proof.Proof.Gen.KernelIdeal.Skeleton
import proofs.«132601_j48773648613702_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev In := Memref sig .tc .vmem S128x64x128 .f32
abbrev Out := Memref sig .tc .vmem S128x128 .f32

/-- The eight kernel functions are one function of the second grid coordinate, studied at the largest grid; its branch condition: -/
abbrev cond (i : grid7.Coords) : Prop := (Scalar.cmpi .ne (Scalar.extui (Scalar.cmpi .eq (BitVec.ofNat 32 (i 1).val) 0#32)) 0#32) = 1#1

abbrev zero : Vec F S128x128 .f32 := broadcast S128x128 (Scalar.ofBits .f32 0x00000000#32)
abbrev part (x : Vec F S128x64x128 .f32) : FVec F S128x128 .f32 :=
  multiReduction .add [1] S128x128 x 0x00000000#32 reduces_S128x64x128_S128x128 (.inl rfl) rfl

theorem hz2 : (![0, 0] : Fin 2 → Nat) = fun _ => 0 := funext fun a => by fin_cases a <;> rfl
theorem hz3 : (![0, 0, 0] : Fin 3 → Nat) = fun _ => 0 := funext fun a => by fin_cases a <;> rfl

noncomputable def runReset (c : Dev nD) (i : grid7.Coords) (a2 : In) (h2 : a2.IsWhole) (a3 : Out) (h3 : a3.IsWhole) (hc : cond i)
    (x : Vec F S128x64x128 .f32) :
    { L1 : List (View.Piece (Elt F) S128x128 .f32) //
      ∀ (E : Set ℕ) (K : PUnit → sProp 𝕄),
        iprop(owns (c : Thread nD τ) a2 fullShare x ∗ (∃ d, owns (c : Thread nD τ) a3 fullShare d)
            ∗ (iprop(owns (c : Thread nD τ) a2 fullShare x ∗ (∃ f, a3.view.loc (c : Thread nD τ) ↦[a3.view.set]{fullShare} a3.view.writes (Elt F) f L1)) -∗ K ⟨⟩))
          ⊢ wp frame (wpE (defs₀ (F := F)) Variants.none c none) E (cc7__sum_seq_kernel i a2 h2 a3 h3) K } := by
  refine ⟨?_, fun E K => ?run⟩
  case run =>
    simp only [cc7__sum_seq_kernel_eq_skeleton]; unfold cc7__sum_seq_kernel_skel
    unfold owns
    iintro ⟨⟨%f0, %hf0, H0⟩, ⟨%d1, %f1, -, H1⟩, Hk⟩
    obtain rfl := h2.eq_unread hf0
    sl_exec (disch := first | exact hc)
    sl_step
    iapply Hk
    isplitl [H0]
    · iexists _; isplitr; · ipureintro; exact h2.read_unread _
      iexact H0
    iexists _; iexact H1

noncomputable def runLater (c : Dev nD) (i : grid7.Coords) (a2 : In) (h2 : a2.IsWhole) (a3 : Out) (h3 : a3.IsWhole) (hc : ¬cond i)
    (x : Vec F S128x64x128 .f32) (xo : Vec F S128x128 .f32) :
    { L1 : List (View.Piece (Elt F) S128x128 .f32) //
      ∀ (E : Set ℕ) (K : PUnit → sProp 𝕄),
        iprop(owns (c : Thread nD τ) a2 fullShare x ∗ owns (c : Thread nD τ) a3 fullShare xo
            ∗ (iprop(owns (c : Thread nD τ) a2 fullShare x ∗ (∃ f, a3.view.loc (c : Thread nD τ) ↦[a3.view.set]{fullShare} a3.view.writes (Elt F) f L1)) -∗ K ⟨⟩))
          ⊢ wp frame (wpE (defs₀ (F := F)) Variants.none c none) E (cc7__sum_seq_kernel i a2 h2 a3 h3) K } := by
  refine ⟨?_, fun E K => ?run⟩
  case run =>
    simp only [cc7__sum_seq_kernel_eq_skeleton]; unfold cc7__sum_seq_kernel_skel
    unfold owns
    iintro ⟨⟨%f0, %hf0, H0⟩, ⟨%f1, %hf1, H1⟩, Hk⟩
    obtain rfl := h2.eq_unread hf0; obtain rfl := h3.eq_unread hf1
    sl_exec (disch := first | exact hc)
    sl_step
    iapply Hk
    isplitl [H0]
    · iexists _; isplitr; · ipureintro; exact h2.read_unread _
      iexact H0
    iexists _; iexact H1

/-- A reset point leaves zero plus the block's sums over its 64 rows, whatever the result block held. -/
theorem reset_val (c : Dev nD) (i : grid7.Coords) (a2 : In) (h2 : a2.IsWhole) (a3 : Out) (h3 : a3.IsWhole) (hc : cond i)
    (x : Vec F S128x64x128 .f32) (f) :
    a3.view.read (Elt F) (a3.view.writes (Elt F) f (runReset c i a2 h2 a3 h3 hc x).1) = addf zero (part x) := by
  rw [View.read_writes_eq_canon _ _ _ (View.cover_of_tiledL (runReset c i a2 h2 a3 h3 hc x).1 S128x128.size (by sl_kernel_rfl))]
  unfold runReset
  dsimp only
  sl_unfold_words
  rw [View.canon_cons_unit_zero (S := S128x128) hz2, View.readCov_unit_zero (S := S128x128) _ hz2]
  unfold k7_pay2 k7_pay1
  simp only [View.readAt_eq_ld, h2.read_unread, View.ld_unit_zero (S := S128x128) hz2, View.ld_unit_zero (S := S128x64x128) hz3, shapeCast_self]

/-- A later point leaves what the result block held plus the block's row sums. -/
theorem later_val (c : Dev nD) (i : grid7.Coords) (a2 : In) (h2 : a2.IsWhole) (a3 : Out) (h3 : a3.IsWhole) (hc : ¬cond i)
    (x : Vec F S128x64x128 .f32) (xo : Vec F S128x128 .f32) (f) :
    a3.view.read (Elt F) (a3.view.writes (Elt F) f (runLater c i a2 h2 a3 h3 hc x xo).1) = addf xo (part x) := by
  rw [View.read_writes_eq_canon _ _ _ (View.cover_of_tiledL (runLater c i a2 h2 a3 h3 hc x xo).1 S128x128.size (by sl_kernel_rfl))]
  unfold runLater
  dsimp only
  rw [View.canon_unit_zero hz2]
  unfold k7_pay2
  simp only [View.readAt_eq_ld, h2.read_unread, h3.read_unread, View.ld_unit_zero (S := S128x128) hz2, View.ld_unit_zero (S := S128x64x128) hz3, shapeCast_self]

theorem wp_reset (c : Dev nD) (i : grid7.Coords) (a2 : In) (h2 : a2.IsWhole) (a3 : Out) (h3 : a3.IsWhole) (hc : cond i)
    (x : Vec F S128x64x128 .f32) (E : Set ℕ) (K : PUnit → sProp 𝕄) :
    iprop(owns (c : Thread nD τ) a2 fullShare x ∗ (∃ d, owns (c : Thread nD τ) a3 fullShare d)
        ∗ (iprop(owns (c : Thread nD τ) a2 fullShare x ∗ owns (c : Thread nD τ) a3 fullShare (addf zero (part x))) -∗ K ⟨⟩))
      ⊢ wp frame (wpE (defs₀ (F := F)) Variants.none c none) E (cc7__sum_seq_kernel i a2 h2 a3 h3) K := by
  iintro ⟨H0, H1, Hk⟩
  iapply ((runReset c i a2 h2 a3 h3 hc x).2 E K)
  isplitl [H0]; · iexact H0
  isplitl [H1]; · iexact H1
  iintro ⟨H0, ⟨%e1, H1⟩⟩
  iapply Hk
  isplitl [H0]; · iexact H0
  unfold owns; iexists _; isplitr
  swap; · iexact H1
  ipureintro; exact reset_val c i a2 h2 a3 h3 hc x _

theorem wp_later (c : Dev nD) (i : grid7.Coords) (a2 : In) (h2 : a2.IsWhole) (a3 : Out) (h3 : a3.IsWhole) (hc : ¬cond i)
    (x : Vec F S128x64x128 .f32) (xo : Vec F S128x128 .f32) (E : Set ℕ) (K : PUnit → sProp 𝕄) :
    iprop(owns (c : Thread nD τ) a2 fullShare x ∗ owns (c : Thread nD τ) a3 fullShare xo
        ∗ (iprop(owns (c : Thread nD τ) a2 fullShare x ∗ owns (c : Thread nD τ) a3 fullShare (addf xo (part x))) -∗ K ⟨⟩))
      ⊢ wp frame (wpE (defs₀ (F := F)) Variants.none c none) E (cc7__sum_seq_kernel i a2 h2 a3 h3) K := by
  iintro ⟨H0, H1, Hk⟩
  iapply ((runLater c i a2 h2 a3 h3 hc x xo).2 E K)
  isplitl [H0]; · iexact H0
  isplitl [H1]; · iexact H1
  iintro ⟨H0, ⟨%e1, H1⟩⟩
  iapply Hk
  isplitl [H0]; · iexact H0
  unfold owns; iexists _; isplitr
  swap; · iexact H1
  ipureintro; exact later_val c i a2 h2 a3 h3 hc x xo _

/-- Window `w`'s block of its array at point `t` of a pallas_call, the arrays at `V`. -/
def iblk (cfg : Cfg sig Λ₀) (V : (c : Dev nD) → (b : Ref sig .tc) → Buf (Elt F) ((c : Thread nD τ).loc b)) (c : Dev nD) (w : Fin cfg.W) (t : Fin cfg.N) :
    ((cfg.win w).xblock (cfg.grid.coords t)).Idx → Elt F (cfg.win w).elt :=
  ((cfg.win w).blk t).view.read (Elt F) (V c (Pipeline.arrRef (fun w => (cfg.win w).toWinSpec) w))

/-- The result block after point `n` when the sum restarts at every `k`-th point. -/
def acc (k : ℕ) {N : ℕ} (blk : Fin N → Vec F S128x64x128 .f32) : (n : ℕ) → n < N → Vec F S128x128 .f32
  | 0, h => addf zero (part (blk ⟨0, h⟩))
  | n + 1, h =>
    if (n + 1) % k = 0 then addf zero (part (blk ⟨n + 1, h⟩))
    else addf (acc k blk n (Nat.lt_of_succ_lt h)) (part (blk ⟨n + 1, h⟩))

theorem acc_reset (k : ℕ) {N : ℕ} (blk : Fin N → Vec F S128x64x128 .f32) (t : Fin N) (h0 : t.val % k = 0) :
    acc k blk t.val t.isLt = addf zero (part (blk t)) := by
  obtain ⟨n, hn⟩ := t
  cases n with
  | zero => rfl
  | succ n => exact if_pos h0

theorem acc_later (k : ℕ) {N : ℕ} (blk : Fin N → Vec F S128x64x128 .f32) (t : Fin N) (h0 : ¬t.val % k = 0) :
    acc k blk t.val t.isLt = addf (acc k blk (t.val - 1) (Nat.lt_of_le_of_lt (Nat.sub_le _ _) t.isLt)) (part (blk t)) := by
  obtain ⟨n, hn⟩ := t
  cases n with
  | zero => exact absurd (Nat.zero_mod _) h0
  | succ n => exact if_neg h0

/-- The body at point `t`, by the two cases. -/
theorem wp_point (c : Dev nD) (k : ℕ) {N : ℕ} (blk : Fin N → Vec F S128x64x128 .f32) (t : Fin N) (i : grid7.Coords)
    (hi : cond i ↔ t.val % k = 0) (a2 : In) (h2 : a2.IsWhole) (a3 : Out) (h3 : a3.IsWhole)
    {D0 D1 : Type} (b : D1 → Vec F S128x128 .f32)
    (hb : ¬t.val % k = 0 → ∀ d, b d = acc k blk (t.val - 1) (Nat.lt_of_le_of_lt (Nat.sub_le _ _) t.isLt))
    (Φ Ω : sProp 𝕄) :
    iprop(Φ ∗ Ω ∗ (∃ _d : D0, owns (c : Thread nD τ) a2 fullShare (blk t)) ∗ (∃ d : D1, owns (c : Thread nD τ) a3 fullShare (b d)))
      ⊢ wp frame (wpE (defs₀ (F := F)) Variants.none c none) Set.univ (cc7__sum_seq_kernel i a2 h2 a3 h3)
          (fun _ => iprop(Φ ∗ Ω ∗ owns (c : Thread nD τ) a2 fullShare (blk t) ∗ owns (c : Thread nD τ) a3 fullShare (acc k blk t.val t.isLt))) := by
  by_cases h0 : t.val % k = 0
  · rw [acc_reset k blk t h0]
    iintro ⟨HΦ, HΩ, ⟨%d0, H0⟩, ⟨%d1, H1⟩⟩
    iapply (wp_reset c i a2 h2 a3 h3 (hi.mpr h0) (blk t) Set.univ _)
    isplitl [H0]; · iexact H0
    isplitl [H1]; · iexists _; iexact H1
    iintro ⟨H0, H1⟩
    isplitl [HΦ]; · iexact HΦ
    isplitl [HΩ]; · iexact HΩ
    isplitl [H0]; · iexact H0
    iexact H1
  · rw [acc_later k blk t h0]
    simp only [hb h0]
    iintro ⟨HΦ, HΩ, ⟨%d0, H0⟩, ⟨%d1, H1⟩⟩
    iapply (wp_later c i a2 h2 a3 h3 (fun h => h0 (hi.mp h)) (blk t) _ Set.univ _)
    isplitl [H0]; · iexact H0
    isplitl [H1]; · iexact H1
    iintro ⟨H0, H1⟩
    isplitl [HΦ]; · iexact HΦ
    isplitl [HΩ]; · iexact HΩ
    isplitl [H0]; · iexact H0
    iexact H1

end Cert.KernelIdeal.Body

end
-- ==== Proof.KernelIdeal.Region0.lean ====
import proofs.«132601_j48773648613702_1_alg».proof.Proof.KernelIdeal.Body

noncomputable section

namespace Cert.KernelIdeal.Region0

open Cert.KernelIdeal Cert.KernelIdeal.Gen
open Idealize.ShloMosaic Idealize.ShloMosaic.TcCoe
open Idealize.SL Idealize.SL.RA Idealize.SL.BI Idealize.SL.BI.BIBase Idealize.SL.Sem
open scoped Idealize.SL.BI
open Idealize.ShloMosaic.Rounds
open Idealize.ShloMosaic.Pipeline (Dat BodyObligation)
open Cert.KernelIdeal.Body

variable {F : FTy → Type} [FloatOps F]

variable (V : (c : Dev nD) → (b : Ref sig .tc) → Buf (Elt F) ((c : Thread nD τ).loc b))

/-- The point's coordinates read in the largest of the eight grids. -/
abbrev up (i : grid0.Coords) : grid7.Coords := fun a => Fin.castLE ((by decide : ∀ a : Fin 2, grid0.bound a ≤ grid7.bound a) a) (i a)

/-- The sum restarts exactly at the first point of each band. -/
theorem hcond : ∀ t : Fin cfg0.N, cond (up (grid0.coords t)) ↔ t.val % 1 = 0 :=
  (by decide +kernel : ∀ t : Fin grid0.N, cond (up (grid0.coords t)) ↔ t.val % 1 = 0)

abbrev msIn (t : Fin cfg0.N) : In := win0_0.stage (cfg0.slots t 0)
abbrev msOut (t : Fin cfg0.N) : Out := win0_1.stage (cfg0.slots t 1)

theorem body_up (t : Fin cfg0.N) : bodyAt0 (F := F) t
    = cc7__sum_seq_kernel (up (grid0.coords t)) (msIn t) (hstage0_0 ((cfg0.slots t 0).cast nbuf0_0)) (msOut t) (hstage0_1 ((cfg0.slots t 1).cast nbuf0_1)) := rfl

/-- After point `t` the input block is kept and the result block is the running sum. -/
def dat (c : Dev nD) : Dat τ (Elt F) Unit ℕ (UR sig nD τ) ℕ cfg0 c where
  A w := V c (Pipeline.arrRef spec0 w)
  after w t := match w with
    | ⟨0, _⟩ => iblk cfg0 V c 0 t
    | ⟨1, _⟩ => acc 1 (iblk cfg0 V c 0) t.val t.isLt
  Φ _ := Pipeline.ΦA spec0 c
  q _ := fullShare
  owed _ := 0

theorem before_in (c : Dev nD) (t : Fin cfg0.N) (d) : (dat V c).before 0 t d = iblk cfg0 V c 0 t :=
  ((dat V c).before_in_eq_fetched 0 rfl (fun _ => rfl) (fun _ _ _ => rfl) (fun _ => rfl) t d).trans rfl

theorem before_out_later (c : Dev nD) (t : Fin cfg0.N) (h0 : ¬t.val % 1 = 0) (d) :
    (dat V c).before 1 t d = acc 1 (iblk cfg0 V c 0) (t.val - 1) (Nat.lt_of_le_of_lt (Nat.sub_le _ _) t.isLt) := by
  exact absurd (Nat.mod_one _) h0

theorem body_obligation (c : Dev nD) : BodyObligation (dat (F := F) V c) (defs₀ (F := F)) Variants.none () Set.univ := fun t => by
  rw [bigSep_W0, bigSep_W0]
  show iprop(_ ∗ _ ∗ (∃ d, owns (c : Thread nD τ) (msIn t) fullShare ((dat V c).before 0 t d))
      ∗ (∃ d, owns (c : Thread nD τ) (msOut t) fullShare ((dat V c).before 1 t d))) ⊢ wp frame _ Set.univ (bodyAt0 t) _
  simp only [before_in]
  rw [body_up]
  exact wp_point c 1 (iblk cfg0 V c 0) t (up (grid0.coords t)) (hcond t) _ _ _ _ (fun d => (dat V c).before 1 t d)
    (fun h0 d => before_out_later V c t h0 d) _ _

end Cert.KernelIdeal.Region0

end
-- ==== Proof.KernelIdeal.Region1.lean ====
import proofs.«132601_j48773648613702_1_alg».proof.Proof.KernelIdeal.Body

noncomputable section

namespace Cert.KernelIdeal.Region1

open Cert.KernelIdeal Cert.KernelIdeal.Gen
open Idealize.ShloMosaic Idealize.ShloMosaic.TcCoe
open Idealize.SL Idealize.SL.RA Idealize.SL.BI Idealize.SL.BI.BIBase Idealize.SL.Sem
open scoped Idealize.SL.BI
open Idealize.ShloMosaic.Rounds
open Idealize.ShloMosaic.Pipeline (Dat BodyObligation)
open Cert.KernelIdeal.Body

variable {F : FTy → Type} [FloatOps F]

variable (V : (c : Dev nD) → (b : Ref sig .tc) → Buf (Elt F) ((c : Thread nD τ).loc b))

/-- The point's coordinates read in the largest of the eight grids. -/
abbrev up (i : grid1.Coords) : grid7.Coords := fun a => Fin.castLE ((by decide : ∀ a : Fin 2, grid1.bound a ≤ grid7.bound a) a) (i a)

/-- The sum restarts exactly at the first point of each band. -/
theorem hcond : ∀ t : Fin cfg1.N, cond (up (grid1.coords t)) ↔ t.val % 2 = 0 :=
  (by decide +kernel : ∀ t : Fin grid1.N, cond (up (grid1.coords t)) ↔ t.val % 2 = 0)

abbrev msIn (t : Fin cfg1.N) : In := win1_0.stage (cfg1.slots t 0)
abbrev msOut (t : Fin cfg1.N) : Out := win1_1.stage (cfg1.slots t 1)

theorem body_up (t : Fin cfg1.N) : bodyAt1 (F := F) t
    = cc7__sum_seq_kernel (up (grid1.coords t)) (msIn t) (hstage1_0 ((cfg1.slots t 0).cast nbuf1_0)) (msOut t) (hstage1_1 ((cfg1.slots t 1).cast nbuf1_1)) := rfl

/-- After point `t` the input block is kept and the result block is the running sum. -/
def dat (c : Dev nD) : Dat τ (Elt F) Unit ℕ (UR sig nD τ) ℕ cfg1 c where
  A w := V c (Pipeline.arrRef spec1 w)
  after w t := match w with
    | ⟨0, _⟩ => iblk cfg1 V c 0 t
    | ⟨1, _⟩ => acc 2 (iblk cfg1 V c 0) t.val t.isLt
  Φ _ := Pipeline.ΦA spec1 c
  q _ := fullShare
  owed _ := 0

theorem before_in (c : Dev nD) (t : Fin cfg1.N) (d) : (dat V c).before 0 t d = iblk cfg1 V c 0 t :=
  ((dat V c).before_in_eq_fetched 0 rfl (fun _ => rfl) (fun _ _ _ => rfl) (fun _ => rfl) t d).trans rfl

theorem before_out_later (c : Dev nD) (t : Fin cfg1.N) (h0 : ¬t.val % 2 = 0) (d) :
    (dat V c).before 1 t d = acc 2 (iblk cfg1 V c 0) (t.val - 1) (Nat.lt_of_le_of_lt (Nat.sub_le _ _) t.isLt) := by
  have hN : t.val < 8 := lt_of_lt_of_eq t.isLt (show cfg1.N = 8 from N_1)
  rw [Dat.before_out_kept _ 1 rfl t (by omega) (Bool.eq_false_iff.mpr fun h => by have := (flush1_1 _).mp h; dsimp only at this; omega)
    (fun _ => rfl) (fun _ _ => rfl)]
  dsimp only [dat]

theorem body_obligation (c : Dev nD) : BodyObligation (dat (F := F) V c) (defs₀ (F := F)) Variants.none () Set.univ := fun t => by
  rw [bigSep_W1, bigSep_W1]
  show iprop(_ ∗ _ ∗ (∃ d, owns (c : Thread nD τ) (msIn t) fullShare ((dat V c).before 0 t d))
      ∗ (∃ d, owns (c : Thread nD τ) (msOut t) fullShare ((dat V c).before 1 t d))) ⊢ wp frame _ Set.univ (bodyAt1 t) _
  simp only [before_in]
  rw [body_up]
  exact wp_point c 2 (iblk cfg1 V c 0) t (up (grid1.coords t)) (hcond t) _ _ _ _ (fun d => (dat V c).before 1 t d)
    (fun h0 d => before_out_later V c t h0 d) _ _

end Cert.KernelIdeal.Region1

end
-- ==== Proof.KernelIdeal.Region2.lean ====
import proofs.«132601_j48773648613702_1_alg».proof.Proof.KernelIdeal.Body

noncomputable section

namespace Cert.KernelIdeal.Region2

open Cert.KernelIdeal Cert.KernelIdeal.Gen
open Idealize.ShloMosaic Idealize.ShloMosaic.TcCoe
open Idealize.SL Idealize.SL.RA Idealize.SL.BI Idealize.SL.BI.BIBase Idealize.SL.Sem
open scoped Idealize.SL.BI
open Idealize.ShloMosaic.Rounds
open Idealize.ShloMosaic.Pipeline (Dat BodyObligation)
open Cert.KernelIdeal.Body

variable {F : FTy → Type} [FloatOps F]

variable (V : (c : Dev nD) → (b : Ref sig .tc) → Buf (Elt F) ((c : Thread nD τ).loc b))

/-- The point's coordinates read in the largest of the eight grids. -/
abbrev up (i : grid2.Coords) : grid7.Coords := fun a => Fin.castLE ((by decide : ∀ a : Fin 2, grid2.bound a ≤ grid7.bound a) a) (i a)

/-- The sum restarts exactly at the first point of each band. -/
theorem hcond : ∀ t : Fin cfg2.N, cond (up (grid2.coords t)) ↔ t.val % 3 = 0 :=
  (by decide +kernel : ∀ t : Fin grid2.N, cond (up (grid2.coords t)) ↔ t.val % 3 = 0)

abbrev msIn (t : Fin cfg2.N) : In := win2_0.stage (cfg2.slots t 0)
abbrev msOut (t : Fin cfg2.N) : Out := win2_1.stage (cfg2.slots t 1)

theorem body_up (t : Fin cfg2.N) : bodyAt2 (F := F) t
    = cc7__sum_seq_kernel (up (grid2.coords t)) (msIn t) (hstage2_0 ((cfg2.slots t 0).cast nbuf2_0)) (msOut t) (hstage2_1 ((cfg2.slots t 1).cast nbuf2_1)) := rfl

/-- After point `t` the input block is kept and the result block is the running sum. -/
def dat (c : Dev nD) : Dat τ (Elt F) Unit ℕ (UR sig nD τ) ℕ cfg2 c where
  A w := V c (Pipeline.arrRef spec2 w)
  after w t := match w with
    | ⟨0, _⟩ => iblk cfg2 V c 0 t
    | ⟨1, _⟩ => acc 3 (iblk cfg2 V c 0) t.val t.isLt
  Φ _ := Pipeline.ΦA spec2 c
  q _ := fullShare
  owed _ := 0

theorem before_in (c : Dev nD) (t : Fin cfg2.N) (d) : (dat V c).before 0 t d = iblk cfg2 V c 0 t :=
  ((dat V c).before_in_eq_fetched 0 rfl (fun _ => rfl) (fun _ _ _ => rfl) (fun _ => rfl) t d).trans rfl

theorem before_out_later (c : Dev nD) (t : Fin cfg2.N) (h0 : ¬t.val % 3 = 0) (d) :
    (dat V c).before 1 t d = acc 3 (iblk cfg2 V c 0) (t.val - 1) (Nat.lt_of_le_of_lt (Nat.sub_le _ _) t.isLt) := by
  have hN : t.val < 12 := lt_of_lt_of_eq t.isLt (show cfg2.N = 12 from N_2)
  rw [Dat.before_out_kept _ 1 rfl t (by omega) (Bool.eq_false_iff.mpr fun h => by have := (flush2_1 _).mp h; dsimp only at this; omega)
    (fun _ => rfl) (fun _ _ => rfl)]
  dsimp only [dat]

theorem body_obligation (c : Dev nD) : BodyObligation (dat (F := F) V c) (defs₀ (F := F)) Variants.none () Set.univ := fun t => by
  rw [bigSep_W2, bigSep_W2]
  show iprop(_ ∗ _ ∗ (∃ d, owns (c : Thread nD τ) (msIn t) fullShare ((dat V c).before 0 t d))
      ∗ (∃ d, owns (c : Thread nD τ) (msOut t) fullShare ((dat V c).before 1 t d))) ⊢ wp frame _ Set.univ (bodyAt2 t) _
  simp only [before_in]
  rw [body_up]
  exact wp_point c 3 (iblk cfg2 V c 0) t (up (grid2.coords t)) (hcond t) _ _ _ _ (fun d => (dat V c).before 1 t d)
    (fun h0 d => before_out_later V c t h0 d) _ _

end Cert.KernelIdeal.Region2

end
-- ==== Proof.KernelIdeal.Region3.lean ====
import proofs.«132601_j48773648613702_1_alg».proof.Proof.KernelIdeal.Body

noncomputable section

namespace Cert.KernelIdeal.Region3

open Cert.KernelIdeal Cert.KernelIdeal.Gen
open Idealize.ShloMosaic Idealize.ShloMosaic.TcCoe
open Idealize.SL Idealize.SL.RA Idealize.SL.BI Idealize.SL.BI.BIBase Idealize.SL.Sem
open scoped Idealize.SL.BI
open Idealize.ShloMosaic.Rounds
open Idealize.ShloMosaic.Pipeline (Dat BodyObligation)
open Cert.KernelIdeal.Body

variable {F : FTy → Type} [FloatOps F]

variable (V : (c : Dev nD) → (b : Ref sig .tc) → Buf (Elt F) ((c : Thread nD τ).loc b))

/-- The point's coordinates read in the largest of the eight grids. -/
abbrev up (i : grid3.Coords) : grid7.Coords := fun a => Fin.castLE ((by decide : ∀ a : Fin 2, grid3.bound a ≤ grid7.bound a) a) (i a)

/-- The sum restarts exactly at the first point of each band. -/
theorem hcond : ∀ t : Fin cfg3.N, cond (up (grid3.coords t)) ↔ t.val % 4 = 0 :=
  (by decide +kernel : ∀ t : Fin grid3.N, cond (up (grid3.coords t)) ↔ t.val % 4 = 0)

abbrev msIn (t : Fin cfg3.N) : In := win3_0.stage (cfg3.slots t 0)
abbrev msOut (t : Fin cfg3.N) : Out := win3_1.stage (cfg3.slots t 1)

theorem body_up (t : Fin cfg3.N) : bodyAt3 (F := F) t
    = cc7__sum_seq_kernel (up (grid3.coords t)) (msIn t) (hstage3_0 ((cfg3.slots t 0).cast nbuf3_0)) (msOut t) (hstage3_1 ((cfg3.slots t 1).cast nbuf3_1)) := rfl

/-- After point `t` the input block is kept and the result block is the running sum. -/
def dat (c : Dev nD) : Dat τ (Elt F) Unit ℕ (UR sig nD τ) ℕ cfg3 c where
  A w := V c (Pipeline.arrRef spec3 w)
  after w t := match w with
    | ⟨0, _⟩ => iblk cfg3 V c 0 t
    | ⟨1, _⟩ => acc 4 (iblk cfg3 V c 0) t.val t.isLt
  Φ _ := Pipeline.ΦA spec3 c
  q _ := fullShare
  owed _ := 0

theorem before_in (c : Dev nD) (t : Fin cfg3.N) (d) : (dat V c).before 0 t d = iblk cfg3 V c 0 t :=
  ((dat V c).before_in_eq_fetched 0 rfl (fun _ => rfl) (fun _ _ _ => rfl) (fun _ => rfl) t d).trans rfl

theorem before_out_later (c : Dev nD) (t : Fin cfg3.N) (h0 : ¬t.val % 4 = 0) (d) :
    (dat V c).before 1 t d = acc 4 (iblk cfg3 V c 0) (t.val - 1) (Nat.lt_of_le_of_lt (Nat.sub_le _ _) t.isLt) := by
  have hN : t.val < 16 := lt_of_lt_of_eq t.isLt (show cfg3.N = 16 from N_3)
  rw [Dat.before_out_kept _ 1 rfl t (by omega) (Bool.eq_false_iff.mpr fun h => by have := (flush3_1 _).mp h; dsimp only at this; omega)
    (fun _ => rfl) (fun _ _ => rfl)]
  dsimp only [dat]

theorem body_obligation (c : Dev nD) : BodyObligation (dat (F := F) V c) (defs₀ (F := F)) Variants.none () Set.univ := fun t => by
  rw [bigSep_W3, bigSep_W3]
  show iprop(_ ∗ _ ∗ (∃ d, owns (c : Thread nD τ) (msIn t) fullShare ((dat V c).before 0 t d))
      ∗ (∃ d, owns (c : Thread nD τ) (msOut t) fullShare ((dat V c).before 1 t d))) ⊢ wp frame _ Set.univ (bodyAt3 t) _
  simp only [before_in]
  rw [body_up]
  exact wp_point c 4 (iblk cfg3 V c 0) t (up (grid3.coords t)) (hcond t) _ _ _ _ (fun d => (dat V c).before 1 t d)
    (fun h0 d => before_out_later V c t h0 d) _ _

end Cert.KernelIdeal.Region3

end
-- ==== Proof.KernelIdeal.Region4.lean ====
import proofs.«132601_j48773648613702_1_alg».proof.Proof.KernelIdeal.Body

noncomputable section

namespace Cert.KernelIdeal.Region4

open Cert.KernelIdeal Cert.KernelIdeal.Gen
open Idealize.ShloMosaic Idealize.ShloMosaic.TcCoe
open Idealize.SL Idealize.SL.RA Idealize.SL.BI Idealize.SL.BI.BIBase Idealize.SL.Sem
open scoped Idealize.SL.BI
open Idealize.ShloMosaic.Rounds
open Idealize.ShloMosaic.Pipeline (Dat BodyObligation)
open Cert.KernelIdeal.Body

variable {F : FTy → Type} [FloatOps F]

variable (V : (c : Dev nD) → (b : Ref sig .tc) → Buf (Elt F) ((c : Thread nD τ).loc b))

/-- The point's coordinates read in the largest of the eight grids. -/
abbrev up (i : grid4.Coords) : grid7.Coords := fun a => Fin.castLE ((by decide : ∀ a : Fin 2, grid4.bound a ≤ grid7.bound a) a) (i a)

/-- The sum restarts exactly at the first point of each band. -/
theorem hcond : ∀ t : Fin cfg4.N, cond (up (grid4.coords t)) ↔ t.val % 5 = 0 :=
  (by decide +kernel : ∀ t : Fin grid4.N, cond (up (grid4.coords t)) ↔ t.val % 5 = 0)

abbrev msIn (t : Fin cfg4.N) : In := win4_0.stage (cfg4.slots t 0)
abbrev msOut (t : Fin cfg4.N) : Out := win4_1.stage (cfg4.slots t 1)

theorem body_up (t : Fin cfg4.N) : bodyAt4 (F := F) t
    = cc7__sum_seq_kernel (up (grid4.coords t)) (msIn t) (hstage4_0 ((cfg4.slots t 0).cast nbuf4_0)) (msOut t) (hstage4_1 ((cfg4.slots t 1).cast nbuf4_1)) := rfl

/-- After point `t` the input block is kept and the result block is the running sum. -/
def dat (c : Dev nD) : Dat τ (Elt F) Unit ℕ (UR sig nD τ) ℕ cfg4 c where
  A w := V c (Pipeline.arrRef spec4 w)
  after w t := match w with
    | ⟨0, _⟩ => iblk cfg4 V c 0 t
    | ⟨1, _⟩ => acc 5 (iblk cfg4 V c 0) t.val t.isLt
  Φ _ := Pipeline.ΦA spec4 c
  q _ := fullShare
  owed _ := 0

theorem before_in (c : Dev nD) (t : Fin cfg4.N) (d) : (dat V c).before 0 t d = iblk cfg4 V c 0 t :=
  ((dat V c).before_in_eq_fetched 0 rfl (fun _ => rfl) (fun _ _ _ => rfl) (fun _ => rfl) t d).trans rfl

theorem before_out_later (c : Dev nD) (t : Fin cfg4.N) (h0 : ¬t.val % 5 = 0) (d) :
    (dat V c).before 1 t d = acc 5 (iblk cfg4 V c 0) (t.val - 1) (Nat.lt_of_le_of_lt (Nat.sub_le _ _) t.isLt) := by
  have hN : t.val < 20 := lt_of_lt_of_eq t.isLt (show cfg4.N = 20 from N_4)
  rw [Dat.before_out_kept _ 1 rfl t (by omega) (Bool.eq_false_iff.mpr fun h => by have := (flush4_1 _).mp h; dsimp only at this; omega)
    (fun _ => rfl) (fun _ _ => rfl)]
  dsimp only [dat]

theorem body_obligation (c : Dev nD) : BodyObligation (dat (F := F) V c) (defs₀ (F := F)) Variants.none () Set.univ := fun t => by
  rw [bigSep_W4, bigSep_W4]
  show iprop(_ ∗ _ ∗ (∃ d, owns (c : Thread nD τ) (msIn t) fullShare ((dat V c).before 0 t d))
      ∗ (∃ d, owns (c : Thread nD τ) (msOut t) fullShare ((dat V c).before 1 t d))) ⊢ wp frame _ Set.univ (bodyAt4 t) _
  simp only [before_in]
  rw [body_up]
  exact wp_point c 5 (iblk cfg4 V c 0) t (up (grid4.coords t)) (hcond t) _ _ _ _ (fun d => (dat V c).before 1 t d)
    (fun h0 d => before_out_later V c t h0 d) _ _

end Cert.KernelIdeal.Region4

end
-- ==== Proof.KernelIdeal.Region5.lean ====
import proofs.«132601_j48773648613702_1_alg».proof.Proof.KernelIdeal.Body

noncomputable section

namespace Cert.KernelIdeal.Region5

open Cert.KernelIdeal Cert.KernelIdeal.Gen
open Idealize.ShloMosaic Idealize.ShloMosaic.TcCoe
open Idealize.SL Idealize.SL.RA Idealize.SL.BI Idealize.SL.BI.BIBase Idealize.SL.Sem
open scoped Idealize.SL.BI
open Idealize.ShloMosaic.Rounds
open Idealize.ShloMosaic.Pipeline (Dat BodyObligation)
open Cert.KernelIdeal.Body

variable {F : FTy → Type} [FloatOps F]

variable (V : (c : Dev nD) → (b : Ref sig .tc) → Buf (Elt F) ((c : Thread nD τ).loc b))

/-- The point's coordinates read in the largest of the eight grids. -/
abbrev up (i : grid5.Coords) : grid7.Coords := fun a => Fin.castLE ((by decide : ∀ a : Fin 2, grid5.bound a ≤ grid7.bound a) a) (i a)

/-- The sum restarts exactly at the first point of each band. -/
theorem hcond : ∀ t : Fin cfg5.N, cond (up (grid5.coords t)) ↔ t.val % 6 = 0 :=
  (by decide +kernel : ∀ t : Fin grid5.N, cond (up (grid5.coords t)) ↔ t.val % 6 = 0)

abbrev msIn (t : Fin cfg5.N) : In := win5_0.stage (cfg5.slots t 0)
abbrev msOut (t : Fin cfg5.N) : Out := win5_1.stage (cfg5.slots t 1)

theorem body_up (t : Fin cfg5.N) : bodyAt5 (F := F) t
    = cc7__sum_seq_kernel (up (grid5.coords t)) (msIn t) (hstage5_0 ((cfg5.slots t 0).cast nbuf5_0)) (msOut t) (hstage5_1 ((cfg5.slots t 1).cast nbuf5_1)) := rfl

/-- After point `t` the input block is kept and the result block is the running sum. -/
def dat (c : Dev nD) : Dat τ (Elt F) Unit ℕ (UR sig nD τ) ℕ cfg5 c where
  A w := V c (Pipeline.arrRef spec5 w)
  after w t := match w with
    | ⟨0, _⟩ => iblk cfg5 V c 0 t
    | ⟨1, _⟩ => acc 6 (iblk cfg5 V c 0) t.val t.isLt
  Φ _ := Pipeline.ΦA spec5 c
  q _ := fullShare
  owed _ := 0

theorem before_in (c : Dev nD) (t : Fin cfg5.N) (d) : (dat V c).before 0 t d = iblk cfg5 V c 0 t :=
  ((dat V c).before_in_eq_fetched 0 rfl (fun _ => rfl) (fun _ _ _ => rfl) (fun _ => rfl) t d).trans rfl

theorem before_out_later (c : Dev nD) (t : Fin cfg5.N) (h0 : ¬t.val % 6 = 0) (d) :
    (dat V c).before 1 t d = acc 6 (iblk cfg5 V c 0) (t.val - 1) (Nat.lt_of_le_of_lt (Nat.sub_le _ _) t.isLt) := by
  have hN : t.val < 24 := lt_of_lt_of_eq t.isLt (show cfg5.N = 24 from N_5)
  rw [Dat.before_out_kept _ 1 rfl t (by omega) (Bool.eq_false_iff.mpr fun h => by have := (flush5_1 _).mp h; dsimp only at this; omega)
    (fun _ => rfl) (fun _ _ => rfl)]
  dsimp only [dat]

theorem body_obligation (c : Dev nD) : BodyObligation (dat (F := F) V c) (defs₀ (F := F)) Variants.none () Set.univ := fun t => by
  rw [bigSep_W5, bigSep_W5]
  show iprop(_ ∗ _ ∗ (∃ d, owns (c : Thread nD τ) (msIn t) fullShare ((dat V c).before 0 t d))
      ∗ (∃ d, owns (c : Thread nD τ) (msOut t) fullShare ((dat V c).before 1 t d))) ⊢ wp frame _ Set.univ (bodyAt5 t) _
  simp only [before_in]
  rw [body_up]
  exact wp_point c 6 (iblk cfg5 V c 0) t (up (grid5.coords t)) (hcond t) _ _ _ _ (fun d => (dat V c).before 1 t d)
    (fun h0 d => before_out_later V c t h0 d) _ _

end Cert.KernelIdeal.Region5

end
-- ==== Proof.KernelIdeal.Region6.lean ====
import proofs.«132601_j48773648613702_1_alg».proof.Proof.KernelIdeal.Body

noncomputable section

namespace Cert.KernelIdeal.Region6

open Cert.KernelIdeal Cert.KernelIdeal.Gen
open Idealize.ShloMosaic Idealize.ShloMosaic.TcCoe
open Idealize.SL Idealize.SL.RA Idealize.SL.BI Idealize.SL.BI.BIBase Idealize.SL.Sem
open scoped Idealize.SL.BI
open Idealize.ShloMosaic.Rounds
open Idealize.ShloMosaic.Pipeline (Dat BodyObligation)
open Cert.KernelIdeal.Body

variable {F : FTy → Type} [FloatOps F]

variable (V : (c : Dev nD) → (b : Ref sig .tc) → Buf (Elt F) ((c : Thread nD τ).loc b))

/-- The point's coordinates read in the largest of the eight grids. -/
abbrev up (i : grid6.Coords) : grid7.Coords := fun a => Fin.castLE ((by decide : ∀ a : Fin 2, grid6.bound a ≤ grid7.bound a) a) (i a)

/-- The sum restarts exactly at the first point of each band. -/
theorem hcond : ∀ t : Fin cfg6.N, cond (up (grid6.coords t)) ↔ t.val % 7 = 0 :=
  (by decide +kernel : ∀ t : Fin grid6.N, cond (up (grid6.coords t)) ↔ t.val % 7 = 0)

abbrev msIn (t : Fin cfg6.N) : In := win6_0.stage (cfg6.slots t 0)
abbrev msOut (t : Fin cfg6.N) : Out := win6_1.stage (cfg6.slots t 1)

theorem body_up (t : Fin cfg6.N) : bodyAt6 (F := F) t
    = cc7__sum_seq_kernel (up (grid6.coords t)) (msIn t) (hstage6_0 ((cfg6.slots t 0).cast nbuf6_0)) (msOut t) (hstage6_1 ((cfg6.slots t 1).cast nbuf6_1)) := rfl

/-- After point `t` the input block is kept and the result block is the running sum. -/
def dat (c : Dev nD) : Dat τ (Elt F) Unit ℕ (UR sig nD τ) ℕ cfg6 c where
  A w := V c (Pipeline.arrRef spec6 w)
  after w t := match w with
    | ⟨0, _⟩ => iblk cfg6 V c 0 t
    | ⟨1, _⟩ => acc 7 (iblk cfg6 V c 0) t.val t.isLt
  Φ _ := Pipeline.ΦA spec6 c
  q _ := fullShare
  owed _ := 0

theorem before_in (c : Dev nD) (t : Fin cfg6.N) (d) : (dat V c).before 0 t d = iblk cfg6 V c 0 t :=
  ((dat V c).before_in_eq_fetched 0 rfl (fun _ => rfl) (fun _ _ _ => rfl) (fun _ => rfl) t d).trans rfl

theorem before_out_later (c : Dev nD) (t : Fin cfg6.N) (h0 : ¬t.val % 7 = 0) (d) :
    (dat V c).before 1 t d = acc 7 (iblk cfg6 V c 0) (t.val - 1) (Nat.lt_of_le_of_lt (Nat.sub_le _ _) t.isLt) := by
  have hN : t.val < 28 := lt_of_lt_of_eq t.isLt (show cfg6.N = 28 from N_6)
  rw [Dat.before_out_kept _ 1 rfl t (by omega) (Bool.eq_false_iff.mpr fun h => by have := (flush6_1 _).mp h; dsimp only at this; omega)
    (fun _ => rfl) (fun _ _ => rfl)]
  dsimp only [dat]

theorem body_obligation (c : Dev nD) : BodyObligation (dat (F := F) V c) (defs₀ (F := F)) Variants.none () Set.univ := fun t => by
  rw [bigSep_W6, bigSep_W6]
  show iprop(_ ∗ _ ∗ (∃ d, owns (c : Thread nD τ) (msIn t) fullShare ((dat V c).before 0 t d))
      ∗ (∃ d, owns (c : Thread nD τ) (msOut t) fullShare ((dat V c).before 1 t d))) ⊢ wp frame _ Set.univ (bodyAt6 t) _
  simp only [before_in]
  rw [body_up]
  exact wp_point c 7 (iblk cfg6 V c 0) t (up (grid6.coords t)) (hcond t) _ _ _ _ (fun d => (dat V c).before 1 t d)
    (fun h0 d => before_out_later V c t h0 d) _ _

end Cert.KernelIdeal.Region6

end
-- ==== Proof.KernelIdeal.Region7.lean ====
import proofs.«132601_j48773648613702_1_alg».proof.Proof.KernelIdeal.Body

noncomputable section

namespace Cert.KernelIdeal.Region7

open Cert.KernelIdeal Cert.KernelIdeal.Gen
open Idealize.ShloMosaic Idealize.ShloMosaic.TcCoe
open Idealize.SL Idealize.SL.RA Idealize.SL.BI Idealize.SL.BI.BIBase Idealize.SL.Sem
open scoped Idealize.SL.BI
open Idealize.ShloMosaic.Rounds
open Idealize.ShloMosaic.Pipeline (Dat BodyObligation)
open Cert.KernelIdeal.Body

variable {F : FTy → Type} [FloatOps F]

variable (V : (c : Dev nD) → (b : Ref sig .tc) → Buf (Elt F) ((c : Thread nD τ).loc b))

/-- The point's coordinates read in the largest of the eight grids. -/
abbrev up (i : grid7.Coords) : grid7.Coords := fun a => Fin.castLE ((by decide : ∀ a : Fin 2, grid7.bound a ≤ grid7.bound a) a) (i a)

/-- The sum restarts exactly at the first point of each band. -/
theorem hcond : ∀ t : Fin cfg7.N, cond (up (grid7.coords t)) ↔ t.val % 8 = 0 :=
  (by decide +kernel : ∀ t : Fin grid7.N, cond (up (grid7.coords t)) ↔ t.val % 8 = 0)

abbrev msIn (t : Fin cfg7.N) : In := win7_0.stage (cfg7.slots t 0)
abbrev msOut (t : Fin cfg7.N) : Out := win7_1.stage (cfg7.slots t 1)

theorem body_up (t : Fin cfg7.N) : bodyAt7 (F := F) t
    = cc7__sum_seq_kernel (up (grid7.coords t)) (msIn t) (hstage7_0 ((cfg7.slots t 0).cast nbuf7_0)) (msOut t) (hstage7_1 ((cfg7.slots t 1).cast nbuf7_1)) := rfl

/-- After point `t` the input block is kept and the result block is the running sum. -/
def dat (c : Dev nD) : Dat τ (Elt F) Unit ℕ (UR sig nD τ) ℕ cfg7 c where
  A w := V c (Pipeline.arrRef spec7 w)
  after w t := match w with
    | ⟨0, _⟩ => iblk cfg7 V c 0 t
    | ⟨1, _⟩ => acc 8 (iblk cfg7 V c 0) t.val t.isLt
  Φ _ := Pipeline.ΦA spec7 c
  q _ := fullShare
  owed _ := 0

theorem before_in (c : Dev nD) (t : Fin cfg7.N) (d) : (dat V c).before 0 t d = iblk cfg7 V c 0 t :=
  ((dat V c).before_in_eq_fetched 0 rfl (fun _ => rfl) (fun _ _ _ => rfl) (fun _ => rfl) t d).trans rfl

theorem before_out_later (c : Dev nD) (t : Fin cfg7.N) (h0 : ¬t.val % 8 = 0) (d) :
    (dat V c).before 1 t d = acc 8 (iblk cfg7 V c 0) (t.val - 1) (Nat.lt_of_le_of_lt (Nat.sub_le _ _) t.isLt) := by
  have hN : t.val < 32 := lt_of_lt_of_eq t.isLt (show cfg7.N = 32 from N_7)
  rw [Dat.before_out_kept _ 1 rfl t (by omega) (Bool.eq_false_iff.mpr fun h => by have := (flush7_1 _).mp h; dsimp only at this; omega)
    (fun _ => rfl) (fun _ _ => rfl)]
  dsimp only [dat]

theorem body_obligation (c : Dev nD) : BodyObligation (dat (F := F) V c) (defs₀ (F := F)) Variants.none () Set.univ := fun t => by
  rw [bigSep_W7, bigSep_W7]
  show iprop(_ ∗ _ ∗ (∃ d, owns (c : Thread nD τ) (msIn t) fullShare ((dat V c).before 0 t d))
      ∗ (∃ d, owns (c : Thread nD τ) (msOut t) fullShare ((dat V c).before 1 t d))) ⊢ wp frame _ Set.univ (bodyAt7 t) _
  simp only [before_in]
  rw [body_up]
  exact wp_point c 8 (iblk cfg7 V c 0) t (up (grid7.coords t)) (hcond t) _ _ _ _ (fun d => (dat V c).before 1 t d)
    (fun h0 d => before_out_later V c t h0 d) _ _

end Cert.KernelIdeal.Region7

end
-- ==== Proof.KernelIdeal.Fold.lean ====
import proofs.«132601_j48773648613702_1_alg».proof.Proof.KernelIdeal.Region0
import proofs.«132601_j48773648613702_1_alg».proof.Proof.KernelIdeal.Region1
import proofs.«132601_j48773648613702_1_alg».proof.Proof.KernelIdeal.Region2
import proofs.«132601_j48773648613702_1_alg».proof.Proof.KernelIdeal.Region3
import proofs.«132601_j48773648613702_1_alg».proof.Proof.KernelIdeal.Region4
import proofs.«132601_j48773648613702_1_alg».proof.Proof.KernelIdeal.Region5
import proofs.«132601_j48773648613702_1_alg».proof.Proof.KernelIdeal.Region6
import proofs.«132601_j48773648613702_1_alg».proof.Proof.KernelIdeal.Region7
import proofs.«132601_j48773648613702_1_alg».proof.Proof.Gen.KernelIdeal.Regions
import Idealize.ShloMosaic.Lib.StableHlo.Run

noncomputable section

namespace Cert.KernelIdeal.Fold

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A core's buffers read at its references. -/
abbrev Ent (F : FTy → Type) : Type := (c : Dev nD) → (b : Ref sig .tc) → Buf (Elt F) ((c : Thread nD τ).loc b)

abbrev spec (p : Fin 8) : Fin (cfgs p).W → Pipeline.WinSpec sig (cfgs p).grid.rank := fun w => ((cfgs p).win w).toWinSpec

theorem launch : (p : Fin 8) → Pipeline.LaunchFacts (nD := nD) (τ := τ) cfgs p
  | ⟨0, _⟩ => launch0
  | ⟨1, _⟩ => launch1
  | ⟨2, _⟩ => launch2
  | ⟨3, _⟩ => launch3
  | ⟨4, _⟩ => launch4
  | ⟨5, _⟩ => launch5
  | ⟨6, _⟩ => launch6
  | ⟨7, _⟩ => launch7

def after (V : Ent F) : (p : Fin 8) → (c : Dev nD) → (w : Fin (cfgs p).W) → Fin (cfgs p).N → ((cfgs p).win w).block.Idx → Elt F ((cfgs p).win w).elt
  | ⟨0, _⟩, c => (Region0.dat V c).after
  | ⟨1, _⟩, c => (Region1.dat V c).after
  | ⟨2, _⟩, c => (Region2.dat V c).after
  | ⟨3, _⟩, c => (Region3.dat V c).after
  | ⟨4, _⟩, c => (Region4.dat V c).after
  | ⟨5, _⟩, c => (Region5.dat V c).after
  | ⟨6, _⟩, c => (Region6.dat V c).after
  | ⟨7, _⟩, c => (Region7.dat V c).after

/-- The eight regions' proof data as one family, at the entry contents `V`. -/
def dat (V : Ent F) (p : Fin 8) (c : Dev nD) : Dat τ (Elt F) Unit ℕ (UR sig nD τ) ℕ (cfgs p) c where
  A w := V c (Pipeline.arrRef (spec p) w)
  after := after V p c
  Φ _ := Pipeline.ΦA (spec p) c
  q _ := fullShare
  owed _ := 0

theorem body_obligation (V : Ent F) : (p : Fin 8) → (c : Dev nD) → BodyObligation (dat V p c) (defs₀ (F := F)) Variants.none () Set.univ
  | ⟨0, _⟩, c => Region0.body_obligation V c
  | ⟨1, _⟩, c => Region1.body_obligation V c
  | ⟨2, _⟩, c => Region2.body_obligation V c
  | ⟨3, _⟩, c => Region3.body_obligation V c
  | ⟨4, _⟩, c => Region4.body_obligation V c
  | ⟨5, _⟩, c => Region5.body_obligation V c
  | ⟨6, _⟩, c => Region6.body_obligation V c
  | ⟨7, _⟩, c => Region7.body_obligation V c

variable (m : (ℓ : Loc nD τ sig) → Buf (Elt F) ℓ)

/-- The buffers after the first `k` regions: a region changes its own arrays only, from the contents it was entered with. -/
def W : ℕ → Dev nD → Valuation τ sig (Elt F)
  | 0, c => fun b => m ((c : Dev nD), b)
  | k + 1, c =>
    if h : k < 8 then Pipeline.withArrays (spec ⟨k, h⟩) c (W k c) fun w => (dat (fun c b => W k c b) ⟨k, h⟩ c).arrAt w (cfgs ⟨k, h⟩).N
    else W k c

abbrev E (k : ℕ) : Ent F := fun c b => W m k c b

theorem W_succ (p : Fin 8) (c : Dev nD) :
    W m (p.val + 1) c = Pipeline.withArrays (spec p) c (W m p.val c) fun w => (dat (E m p.val) p c).arrAt w (cfgs p).N := by
  rw [W, dif_pos p.isLt]

theorem W_arr (p : Fin 8) (c : Dev nD) (w : Fin (cfgs p).W) :
    W m (p.val + 1) c (Proc.devRef .tc (Pipeline.arrRef (spec p) w)) = (dat (E m p.val) p c).arrAt w (cfgs p).N := by
  rw [W_succ]; exact Pipeline.withArrays_arr (spec p) (launch p).win.arr_inj c _ _ w

theorem W_of_ne (p : Fin 8) (c : Dev nD) (b : Ref sig .tc) (hb : ∀ w, Pipeline.arrRef (spec p) w ≠ b) :
    W m (p.val + 1) c (Proc.devRef .tc b) = W m p.val c (Proc.devRef .tc b) := by
  rw [W_succ]; exact Pipeline.withArrays_of_ne (spec p) c _ _ b hb

theorem hrest (p : Fin 8) (c : Dev nD) : ∀ b, b ∉ Finset.univ.image (Pipeline.arrRef (spec p)) → E m (p.val + 1) c b = E m p.val c b :=
  fun b hb => W_of_ne m p c b fun w e => hb (Finset.mem_image.mpr ⟨w, Finset.mem_univ _, e⟩)

/-- A buffer that is the result array of no region from `k₀` on keeps its contents: an input array is handed back as it was. -/
theorem W_keep (c : Dev nD) (b : Ref sig .tc) (k₀ : ℕ)
    (h : ∀ p : Fin 8, k₀ ≤ p.val → ∀ w, ((cfgs p).win w).isOut = true → Pipeline.arrRef (spec p) w ≠ b) :
    ∀ k, k₀ ≤ k → W m k c (Proc.devRef .tc b) = W m k₀ c (Proc.devRef .tc b) := by
  intro k hk
  induction k, hk using Nat.le_induction with
  | base => rfl
  | succ k hk ih =>
    refine Eq.trans ?_ ih
    by_cases h8 : k < 8
    · by_cases hw : ∃ w, Pipeline.arrRef (spec ⟨k, h8⟩) w = b
      · obtain ⟨w, rfl⟩ := hw
        have hin : ((cfgs ⟨k, h8⟩).win w).isOut = false := by
          cases ho : ((cfgs ⟨k, h8⟩).win w).isOut
          · rfl
          · exact absurd rfl (h ⟨k, h8⟩ hk w ho)
        exact (W_arr m ⟨k, h8⟩ c w).trans ((dat (E m k) ⟨k, h8⟩ c).arrAt_in w hin _)
      · exact W_of_ne m ⟨k, h8⟩ c b fun w e => hw ⟨w, e⟩
    · rw [W, dif_neg h8]

/-- The buffers at the end of the program. -/
abbrev W9 : Dev nD → Valuation τ sig (Elt F) := fun c => StableHlo.after hostOps8 (W m 8 c)

/-- An argument array is written by no item, so it ends as launched. -/
theorem W9_arg (c : Dev nD) (b : Ref sig .tc) (hb : b ∉ hostOps8_W)
    (h : ∀ p : Fin 8, 0 ≤ p.val → ∀ w, ((cfgs p).win w).isOut = true → Pipeline.arrRef (spec p) w ≠ b) :
    W9 m c (Proc.devRef .tc b) = m ((c : Thread nD τ).loc b) :=
  (StableHlo.after_of_writes_sub hostOps8 _ hostOps8_writes hb).trans (W_keep m c b 0 h 8 (Nat.zero_le _))

/-- The eight result arrays after the regions, concatenated. -/
def outcome (c : Dev nD) : Vec F S512x1024 .f32 :=
  concatenate S512x1024 1 [⟨S512x128, W m 8 c (Proc.devRef .tc main_v0)⟩, ⟨S512x128, W m 8 c (Proc.devRef .tc main_v1)⟩, ⟨S512x128, W m 8 c (Proc.devRef .tc main_v2)⟩, ⟨S512x128, W m 8 c (Proc.devRef .tc main_v3)⟩, ⟨S512x128, W m 8 c (Proc.devRef .tc main_v4)⟩, ⟨S512x128, W m 8 c (Proc.devRef .tc main_v5)⟩, ⟨S512x128, W m 8 c (Proc.devRef .tc main_v6)⟩, ⟨S512x128, W m 8 c (Proc.devRef .tc main_v7)⟩] concatenates_S512x128_S512x128_S512x128_S512x128_S512x128_S512x128_S512x128_S512x128_S512x1024_d1

theorem W9_v8 (c : Dev nD) : W9 m c (Proc.devRef .tc main_v8) = outcome m c := by
  show StableHlo.after hostOps8 _ (Proc.devRef .tc main_v8) = _
  after_results
  rfl

def pdats (p : Fin 8) (c : Dev nD) : Dat τ (Elt F) Unit ℕ (UR sig nD τ) ℕ (cfgs p) c := dat (E m p.val) p c
abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

end Cert.KernelIdeal.Fold

end
-- ==== Proof.KernelIdeal.Seg.lean ====
import proofs.«132601_j48773648613702_1_alg».proof.Proof.KernelIdeal.Fold

noncomputable section

namespace Cert.KernelIdeal.Seg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Fold

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region `p` as an item of the program, from the buffers at `W p` to the buffers at `W (p + 1)`. -/
def reg (p : Fin 8) : Pipeline.RegionSeg (pcfgs (F := F)) adm (pdats m) () defs₀ 𝒱₀ L lv p where
  win := (launch p).win.to₀
  block_pos := (launch p).block_pos
  stage_whole := (launch p).stage_whole
  K := PEmpty
  osem k := k.elim
  ho := Pipeline.OwnSemFacts.none _
  hbody c := (body_obligation (E m p.val) p c).loose
  hwaits := Pipeline.hwaits_of_owed_zero _ _ _ _ L lv p fun _ _ => rfl
  pre c := iprop(StableHlo.held (c : Thread nD τ) (Pipeline.ucRefs τ sig) (W m p.val c) ∗ R c)
  post c := iprop(StableHlo.held (c : Thread nD τ) (Pipeline.ucRefs τ sig) (W m (p.val + 1) c) ∗ R c)
  X c := iprop(∃ r, prngReg c r)
  Y c := iprop(∃ r, prngReg c r)
  Z c := Pipeline.unscopedRest (Ix := Unit) (Name := ℕ) (U := UR sig nD τ) (Lvl := ℕ) (spec p) c (E m p.val c)
  hentry c := by
    rw [Pipeline.ownSems0_none]
    have hsplit := Pipeline.arrays_of_unscopedBufs (p := p) (pcfgs (F := F)) adm (pdats m) (launch p).win (launch p).arr_whole c
      ((pdats m p c).share_full fun _ => rfl) (E m p.val c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m p c).Φ 0 = Pipeline.ΦA (spec p) c from rfl]; unfold Pipeline.ΦA
    iintro ⟨Hp, -, Hr⟩
    isplitl [Hr]; · iexact Hr
    iexact Hp
  hout c := by
    rw [Pipeline.ownSems0_none, show (pdats m p c).Φ (Fin.last _) = Pipeline.ΦA (spec p) c from rfl]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      (launch p).win (launch p).arr_whole c (pdats m) ((pdats m p c).share_full fun _ => rfl)
      (E m p.val c) (E m (p.val + 1) c) ((pdats m p c).arrAt · (cfgs p).N) (fun w => (W_arr m p c w).symm) (hrest m p c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Seg

end
-- ==== Proof.KernelIdeal.Run.lean ====
import proofs.«132601_j48773648613702_1_alg».proof.Proof.KernelIdeal.Seg

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Fold

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev hseg8 : Pipeline.HostSeg (Name := ℕ) (U := UR sig nD τ) (pcfgs (F := F)) defs₀ 𝒱₀ L lv :=
  Pipeline.HostSeg.ofOps _ _ _ _ _ (Pipeline.ucRefs τ sig) hostOps8
    (fun op h => Pipeline.sub_ucRefs op ((List.forall_iff_forall_mem.mp hostOps8_sub) op h))
    (fun op h => (List.forall_iff_forall_mem.mp hostOps8_fresh) op h) (W m 8) R

abbrev segs : List (Pipeline.Seg (pcfgs (F := F)) adm (pdats m) () defs₀ 𝒱₀ L lv) :=
  [.region (Seg.reg m 0), .region (Seg.reg m 1), .region (Seg.reg m 2), .region (Seg.reg m 3), .region (Seg.reg m 4), .region (Seg.reg m 5), .region (Seg.reg m 6), .region (Seg.reg m 7), .host (hseg8 m)]

theorem main_run (c : Dev nD) : main (F := F) c = Pipeline.Seg.run (segs m) := (main_chain c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W9 m c) ∗ ∃ r, prngReg c r)

set_option backward.isDefEq.respectTransparency.types false in
/-- The program runs to its end, the core's buffers then at `W9`. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W9 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W m 0 c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun c =>
      (show iprop(StableHlo.held (c : Thread nD τ) (Pipeline.ucRefs τ sig) (W9 m c) ∗ R c)
          ⊢ iprop(Tₙ m c ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W m 0 c)
        from Pipeline.unscopedBufs_held c (W m 0 c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h c => h c)

/-- Read at `main_v8` and at the arguments. -/
theorem result : θ_run defs (onTc (τ := τ) (main (F := F))) ⟨m, fun _ => 0, ρ⟩ (fun r => ∀ c : Dev nD,
      r.2.mem ((c.tc : Thread nD τ).loc main_v8) = outcome m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c _ (mem_uc main_v8 (by decide))).trans (W9_v8 m c),
    (h c _ (mem_uc main_arg0 (by decide))).trans (W9_arg m c main_arg0 (by decide) (by decide)),
    (h c _ (mem_uc main_arg1 (by decide))).trans (W9_arg m c main_arg1 (by decide) (by decide)),
    (h c _ (mem_uc main_arg2 (by decide))).trans (W9_arg m c main_arg2 (by decide) (by decide)),
    (h c _ (mem_uc main_arg3 (by decide))).trans (W9_arg m c main_arg3 (by decide) (by decide)),
    (h c _ (mem_uc main_arg4 (by decide))).trans (W9_arg m c main_arg4 (by decide) (by decide)),
    (h c _ (mem_uc main_arg5 (by decide))).trans (W9_arg m c main_arg5 (by decide) (by decide)),
    (h c _ (mem_uc main_arg6 (by decide))).trans (W9_arg m c main_arg6 (by decide) (by decide)),
    (h c _ (mem_uc main_arg7 (by decide))).trans (W9_arg m c main_arg7 (by decide) (by decide))⟩) (run_all m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => (h c).2) (result m ρ)

end Cert.KernelIdeal.Run

end
-- ==== Proof.PartialSums.lean ====
import Idealize.ShloMosaic.PureOps.Ideal.Laws

namespace Cert.PartialSums

/-- Consecutive runs of 64 terms join into one sum. -/
theorem add_run {M : Type} [AddCommMonoid M] (f : ℕ → M) (j : ℕ) :
    (∑ k ∈ Finset.range (64 * j), f k) + ∑ r : Fin 64, f (64 * j + r.val) = ∑ k ∈ Finset.range (64 * (j + 1)), f k := by
  rw [Nat.mul_succ, Finset.sum_range_add, Finset.sum_range (fun x => f (64 * j + x))]

theorem first_run {M : Type} [AddCommMonoid M] (f : ℕ → M) :
    ∑ r : Fin 64, f (64 * 0 + r.val) = ∑ k ∈ Finset.range (64 * (0 + 1)), f k := by
  rw [← add_run f 0, Nat.mul_zero, Finset.range_zero, Finset.sum_empty, zero_add]

/-- Inside a band of `k` points the point before `n` is in the same band, one run earlier. -/
theorem pred_div_mod {k n : ℕ} (hk : 0 < k) (h0 : n % k ≠ 0) : (n - 1) / k = n / k ∧ (n - 1) % k + 1 = n % k := by
  have hn := Nat.div_add_mod n k
  have hr := Nat.mod_lt n hk
  have e : n - 1 = (n % k - 1) + k * (n / k) := by omega
  rw [e, Nat.add_mul_div_left _ _ hk, Nat.add_mul_mod_self_left, Nat.div_eq_of_lt (by omega), Nat.mod_eq_of_lt (by omega)]
  omega

end Cert.PartialSums
-- ==== Proof.KernelIdeal.Sum.lean ====
import proofs.«132601_j48773648613702_1_alg».proof.Proof.KernelIdeal.Body
import proofs.«132601_j48773648613702_1_alg».proof.Proof.PartialSums
import Idealize.ShloMosaic.Lib.ValueIdx
import Idealize.ShloMosaic.Lib.Pipeline.Value
import Idealize.ShloMosaic.PureOps.Ideal.Laws

noncomputable section

namespace Cert.KernelIdeal.Sum

open Cert.KernelIdeal Cert.KernelIdeal.Gen
open Idealize.ShloMosaic Idealize.ShloMosaic.TcCoe
open Idealize.ShloMosaic.Pipeline (Dat)
open Cert.KernelIdeal.Body
open Idealize.ShloMosaic.ValueIdx

theorem part_apply (x : Vec Ideal S128x64x128 .f32) (p q : Fin 128) :
    part x (ix2 p q) = ∑ r : Fin 64, x (ix3 p r q) := by
  refine (Ideal.multiReduction_add_single x 0x00000000#32 reduces_S128x64x128_S128x128 (.inl rfl) rfl (ix2 p q)).trans ?_
  refine Finset.sum_congr rfl fun r _ => congrArg x (funext fun a => Fin.ext ?_)
  match a with
  | ⟨0, _⟩ => rfl
  | ⟨1, _⟩ => rfl
  | ⟨2, _⟩ => rfl

/-- After point `n` the running sum holds the first `64 (n % k + 1)` rows of band `n / k`; only associativity is used, so it holds at the infinities too. -/
theorem acc_apply {k : ℕ} (hk : 0 < k) {N : ℕ} (blk : Fin N → Vec Ideal S128x64x128 .f32) (f : ℕ → ℕ → ℕ → EReal)
    (hblk : ∀ (t : Fin N) (p : Fin 128) (r : Fin 64) (q : Fin 128),
      blk t (ix3 p r q) = f (128 * (t.val / k) + p.val) (64 * (t.val % k) + r.val) q.val) (n : ℕ) :
    ∀ (h : n < N) (p q : Fin 128),
      acc k blk n h (ix2 p q) = ∑ j ∈ Finset.range (64 * (n % k + 1)), f (128 * (n / k) + p.val) j q.val := by
  induction n using Nat.strong_induction_on with
  | _ n ih =>
    intro h p q
    by_cases h0 : n % k = 0
    · rw [acc_reset k blk ⟨n, h⟩ h0, addf_apply, part_apply]
      show (Ideal.ofBits .f32 0x00000000#32 : EReal) + ∑ r : Fin 64, blk ⟨n, h⟩ (ix3 p r q) = _
      rw [Ideal.ofBits_zero_f32, zero_add, h0]
      simp only [hblk, h0]
      exact Cert.PartialSums.first_run (fun j => f (128 * (n / k) + p.val) j q.val)
    · obtain ⟨e1, e2⟩ := Cert.PartialSums.pred_div_mod hk h0
      have hpos : 0 < n := Nat.pos_of_ne_zero fun e => h0 (e ▸ Nat.zero_mod k)
      rw [acc_later k blk ⟨n, h⟩ h0, addf_apply, part_apply]
      show acc k blk (n - 1) _ (ix2 p q) + ∑ r : Fin 64, blk ⟨n, h⟩ (ix3 p r q) = _
      rw [ih (n - 1) (Nat.sub_lt hpos Nat.one_pos) (Nat.lt_of_le_of_lt (Nat.sub_le _ _) h) p q]
      simp only [hblk]
      rw [e1, e2]
      exact Cert.PartialSums.add_run (fun j => f (128 * (n / k) + p.val) j q.val) (n % k)

end Cert.KernelIdeal.Sum

end
-- ==== Proof.KernelIdeal.Value0.lean ====
import proofs.«132601_j48773648613702_1_alg».proof.Proof.KernelIdeal.Region0
import proofs.«132601_j48773648613702_1_alg».proof.Proof.KernelIdeal.Sum
import proofs.«132601_j48773648613702_1_alg».proof.Proof.Gen.ReferenceIdeal.Read

noncomputable section

namespace Cert.KernelIdeal.Value0

open Cert.KernelIdeal Cert.KernelIdeal.Gen
open Idealize.ShloMosaic Idealize.ShloMosaic.TcCoe
open Idealize.ShloMosaic.Pipeline (Dat)
open Cert.KernelIdeal.Body Cert.KernelIdeal.Sum Cert.KernelIdeal.Region0
open Idealize.ShloMosaic.ValueIdx
open Cert.ReferenceIdeal.Read

variable (V : (c : Dev nD) → (b : Ref sig .tc) → Buf (Elt Ideal) ((c : Thread nD τ).loc b))

abbrev xarr (c : Dev nD) : Vec Ideal S512x64x128 .f32 := V c main_arg0

/-- Coordinates as natural numbers, so that sums over ranges of rows can be joined. -/
def at3 (x : Vec Ideal S512x64x128 .f32) (a k d : ℕ) : EReal :=
  if h : a < 512 ∧ k < 64 * 1 ∧ d < 128 then x (ix3 ⟨a, h.1⟩ ⟨k, h.2.1⟩ ⟨d, h.2.2⟩) else 0

theorem idx_in : ∀ t : Fin cfg0.N, win0_0.index t (0 : Fin 3) = t.val / 1 ∧ win0_0.index t (1 : Fin 3) = t.val % 1 ∧ win0_0.index t (2 : Fin 3) = 0 :=
  (by decide +kernel : ∀ t : Fin grid0.N, win0_0.index t (0 : Fin 3) = t.val / 1 ∧ win0_0.index t (1 : Fin 3) = t.val % 1 ∧ win0_0.index t (2 : Fin 3) = 0)
theorem idx_out : ∀ t : Fin cfg0.N, win0_1.index t (0 : Fin 2) = t.val / 1 ∧ win0_1.index t (1 : Fin 2) = 0 :=
  (by decide +kernel : ∀ t : Fin grid0.N, win0_1.index t (0 : Fin 2) = t.val / 1 ∧ win0_1.index t (1 : Fin 2) = 0)
theorem flush_iff : ∀ t : Fin cfg0.N, (cfg0.win 1).flush t = true ↔ t.val % 1 = 1 - 1 := fun t => ⟨fun _ => Nat.mod_one _, fun _ => flush0_1 t⟩

theorem iblk_apply (c : Dev nD) (t : Fin cfg0.N) (p : Fin 128) (r : Fin 64) (q : Fin 128) :
    (iblk cfg0 V c 0 t : Vec Ideal S128x64x128 .f32) (ix3 p r q) = at3 (xarr V c) (128 * (t.val / 1) + p.val) (64 * (t.val % 1) + r.val) q.val := by
  have hN : t.val < 4 := lt_of_lt_of_eq t.isLt (show cfg0.N = 4 from N_0)
  have hp := p.isLt; have hr := r.isLt; have hq := q.isLt
  obtain ⟨h0, h1, h2⟩ := idx_in t
  have hb : 128 * (t.val / 1) + p.val < 512 ∧ 64 * (t.val % 1) + r.val < 64 * 1 ∧ q.val < 128 := by omega
  unfold at3; rw [dif_pos hb]
  unfold iblk
  rw [View.read_apply]
  show V c main_arg0 _ = V c main_arg0 _
  congr 1
  funext a
  apply Fin.ext
  match a with
  | ⟨0, _⟩ => show win0_0.index t (0 : Fin 3) * 128 + 1 * p.val = 128 * (t.val / 1) + p.val; rw [h0]; omega
  | ⟨1, _⟩ => show win0_0.index t (1 : Fin 3) * 64 + 1 * r.val = 64 * (t.val % 1) + r.val; rw [h1]; omega
  | ⟨2, _⟩ => show win0_0.index t (2 : Fin 3) * 128 + 1 * q.val = q.val; rw [h2]; omega

/-- The last point of a band leaves that band of the sum over the whole middle axis, which is the host's reduction there. -/
theorem flushed_eq (c : Dev nD) (t : Fin cfg0.N) (hf : (cfg0.win 1).flush t = true) :
    (dat V c).flushed 1 t = ((cfg0.win 1).blk t).view.read (Elt Ideal) (val_main_v0 (F := Ideal) (xarr V c)) := by
  have hN : t.val < 4 := lt_of_lt_of_eq t.isLt (show cfg0.N = 4 from N_0)
  have ht : t.val % 1 = 1 - 1 := (flush_iff t).mp hf
  obtain ⟨e0, e1⟩ := idx_out t
  show (cfg0.win 1).cut (grid0.coords t) ((dat V c).after 1 t) = _
  funext y
  obtain ⟨p, q, rfl⟩ : ∃ (p q : Fin 128), y = ix2 p q := ⟨y 0, y 1, eq_ix2 y⟩
  have hp := p.isLt; have hq := q.isLt
  show acc 1 (iblk cfg0 V c 0) t.val t.isLt (ix2 p q) = val_main_v0 (F := Ideal) (xarr V c) (((cfg0.win 1).blk t).view.emb (ix2 p q))
  rw [acc_apply (by decide) (iblk cfg0 V c 0) (at3 (xarr V c)) (iblk_apply V c) t.val t.isLt p q, val_main_v0_apply, val_main_cst_apply]
  show _ = (Ideal.ofBits .f32 0x00000000#32 : EReal) + _
  rw [Ideal.ofBits_zero_f32, zero_add, ht, Finset.sum_range]
  refine Finset.sum_congr rfl fun j _ => ?_
  have hj := j.isLt
  have hb : 128 * (t.val / 1) + p.val < 512 ∧ j.val < 64 * 1 ∧ q.val < 128 := by omega
  unfold at3; rw [dif_pos hb]
  refine congrArg (xarr V c) (funext fun a => Fin.ext ?_)
  match a with
  | ⟨0, _⟩ => show 128 * (t.val / 1) + p.val = win0_1.index t (0 : Fin 2) * 128 + 1 * p.val; rw [e0]; omega
  | ⟨1, _⟩ => rfl
  | ⟨2, _⟩ => show q.val = win0_1.index t (1 : Fin 2) * 128 + 1 * q.val; rw [e1]; omega

/-- Every row of the result lies in a band, so the result array ends at the host's reduction of the argument. -/
theorem final (c : Dev nD) : (dat V c).arrAt 1 cfg0.N = val_main_v0 (F := Ideal) (xarr V c) :=
  (dat V c).arrAt_eq_of_cover 1 (val_main_v0 (F := Ideal) (xarr V c)) (flushed_eq V c) fun i => by
    have hi0 : (i 0).val < 512 := (i 0).isLt
    have hi1 : (i 1).val < 128 := (i 1).isLt
    obtain ⟨s, hs⟩ : ∃ s : Fin cfg0.N, s.val = 1 * ((i 0).val / 128) + (1 - 1) :=
      ⟨⟨1 * ((i 0).val / 128) + (1 - 1), by rw [show cfg0.N = 4 from N_0]; omega⟩, rfl⟩
    obtain ⟨e0, e1⟩ := idx_out s
    refine ⟨s, (flush_iff s).mpr (by omega), ?_⟩
    show i ∈ ((View.whole main_v0).slice (win0_1.rect s)).set
    rw [View.set_slice_whole, Rect.mem_set_unit]
    intro a
    match a with
    | ⟨0, _⟩ => show win0_1.index s (0 : Fin 2) * 128 ≤ (i 0).val ∧ (i 0).val < win0_1.index s (0 : Fin 2) * 128 + 128; rw [e0]; omega
    | ⟨1, _⟩ => show win0_1.index s (1 : Fin 2) * 128 ≤ (i 1).val ∧ (i 1).val < win0_1.index s (1 : Fin 2) * 128 + 128; rw [e1]; omega

end Cert.KernelIdeal.Value0

end
-- ==== Proof.KernelIdeal.Value1.lean ====
import proofs.«132601_j48773648613702_1_alg».proof.Proof.KernelIdeal.Region1
import proofs.«132601_j48773648613702_1_alg».proof.Proof.KernelIdeal.Sum
import proofs.«132601_j48773648613702_1_alg».proof.Proof.Gen.ReferenceIdeal.Read

noncomputable section

namespace Cert.KernelIdeal.Value1

open Cert.KernelIdeal Cert.KernelIdeal.Gen
open Idealize.ShloMosaic Idealize.ShloMosaic.TcCoe
open Idealize.ShloMosaic.Pipeline (Dat)
open Cert.KernelIdeal.Body Cert.KernelIdeal.Sum Cert.KernelIdeal.Region1
open Idealize.ShloMosaic.ValueIdx
open Cert.ReferenceIdeal.Read

variable (V : (c : Dev nD) → (b : Ref sig .tc) → Buf (Elt Ideal) ((c : Thread nD τ).loc b))

abbrev xarr (c : Dev nD) : Vec Ideal S512x128x128 .f32 := V c main_arg1

/-- Coordinates as natural numbers, so that sums over ranges of rows can be joined. -/
def at3 (x : Vec Ideal S512x128x128 .f32) (a k d : ℕ) : EReal :=
  if h : a < 512 ∧ k < 64 * 2 ∧ d < 128 then x (ix3 ⟨a, h.1⟩ ⟨k, h.2.1⟩ ⟨d, h.2.2⟩) else 0

theorem idx_in : ∀ t : Fin cfg1.N, win1_0.index t (0 : Fin 3) = t.val / 2 ∧ win1_0.index t (1 : Fin 3) = t.val % 2 ∧ win1_0.index t (2 : Fin 3) = 0 :=
  (by decide +kernel : ∀ t : Fin grid1.N, win1_0.index t (0 : Fin 3) = t.val / 2 ∧ win1_0.index t (1 : Fin 3) = t.val % 2 ∧ win1_0.index t (2 : Fin 3) = 0)
theorem idx_out : ∀ t : Fin cfg1.N, win1_1.index t (0 : Fin 2) = t.val / 2 ∧ win1_1.index t (1 : Fin 2) = 0 :=
  (by decide +kernel : ∀ t : Fin grid1.N, win1_1.index t (0 : Fin 2) = t.val / 2 ∧ win1_1.index t (1 : Fin 2) = 0)
theorem flush_iff : ∀ t : Fin cfg1.N, (cfg1.win 1).flush t = true ↔ t.val % 2 = 2 - 1 := flush1_1

theorem iblk_apply (c : Dev nD) (t : Fin cfg1.N) (p : Fin 128) (r : Fin 64) (q : Fin 128) :
    (iblk cfg1 V c 0 t : Vec Ideal S128x64x128 .f32) (ix3 p r q) = at3 (xarr V c) (128 * (t.val / 2) + p.val) (64 * (t.val % 2) + r.val) q.val := by
  have hN : t.val < 8 := lt_of_lt_of_eq t.isLt (show cfg1.N = 8 from N_1)
  have hp := p.isLt; have hr := r.isLt; have hq := q.isLt
  obtain ⟨h0, h1, h2⟩ := idx_in t
  have hb : 128 * (t.val / 2) + p.val < 512 ∧ 64 * (t.val % 2) + r.val < 64 * 2 ∧ q.val < 128 := by omega
  unfold at3; rw [dif_pos hb]
  unfold iblk
  rw [View.read_apply]
  show V c main_arg1 _ = V c main_arg1 _
  congr 1
  funext a
  apply Fin.ext
  match a with
  | ⟨0, _⟩ => show win1_0.index t (0 : Fin 3) * 128 + 1 * p.val = 128 * (t.val / 2) + p.val; rw [h0]; omega
  | ⟨1, _⟩ => show win1_0.index t (1 : Fin 3) * 64 + 1 * r.val = 64 * (t.val % 2) + r.val; rw [h1]; omega
  | ⟨2, _⟩ => show win1_0.index t (2 : Fin 3) * 128 + 1 * q.val = q.val; rw [h2]; omega

/-- The last point of a band leaves that band of the sum over the whole middle axis, which is the host's reduction there. -/
theorem flushed_eq (c : Dev nD) (t : Fin cfg1.N) (hf : (cfg1.win 1).flush t = true) :
    (dat V c).flushed 1 t = ((cfg1.win 1).blk t).view.read (Elt Ideal) (val_main_v1 (F := Ideal) (xarr V c)) := by
  have hN : t.val < 8 := lt_of_lt_of_eq t.isLt (show cfg1.N = 8 from N_1)
  have ht : t.val % 2 = 2 - 1 := (flush_iff t).mp hf
  obtain ⟨e0, e1⟩ := idx_out t
  show (cfg1.win 1).cut (grid1.coords t) ((dat V c).after 1 t) = _
  funext y
  obtain ⟨p, q, rfl⟩ : ∃ (p q : Fin 128), y = ix2 p q := ⟨y 0, y 1, eq_ix2 y⟩
  have hp := p.isLt; have hq := q.isLt
  show acc 2 (iblk cfg1 V c 0) t.val t.isLt (ix2 p q) = val_main_v1 (F := Ideal) (xarr V c) (((cfg1.win 1).blk t).view.emb (ix2 p q))
  rw [acc_apply (by decide) (iblk cfg1 V c 0) (at3 (xarr V c)) (iblk_apply V c) t.val t.isLt p q, val_main_v1_apply, val_main_cst_0_apply]
  show _ = (Ideal.ofBits .f32 0x00000000#32 : EReal) + _
  rw [Ideal.ofBits_zero_f32, zero_add, ht, Finset.sum_range]
  refine Finset.sum_congr rfl fun j _ => ?_
  have hj := j.isLt
  have hb : 128 * (t.val / 2) + p.val < 512 ∧ j.val < 64 * 2 ∧ q.val < 128 := by omega
  unfold at3; rw [dif_pos hb]
  refine congrArg (xarr V c) (funext fun a => Fin.ext ?_)
  match a with
  | ⟨0, _⟩ => show 128 * (t.val / 2) + p.val = win1_1.index t (0 : Fin 2) * 128 + 1 * p.val; rw [e0]; omega
  | ⟨1, _⟩ => rfl
  | ⟨2, _⟩ => show q.val = win1_1.index t (1 : Fin 2) * 128 + 1 * q.val; rw [e1]; omega

/-- Every row of the result lies in a band, so the result array ends at the host's reduction of the argument. -/
theorem final (c : Dev nD) : (dat V c).arrAt 1 cfg1.N = val_main_v1 (F := Ideal) (xarr V c) :=
  (dat V c).arrAt_eq_of_cover 1 (val_main_v1 (F := Ideal) (xarr V c)) (flushed_eq V c) fun i => by
    have hi0 : (i 0).val < 512 := (i 0).isLt
    have hi1 : (i 1).val < 128 := (i 1).isLt
    obtain ⟨s, hs⟩ : ∃ s : Fin cfg1.N, s.val = 2 * ((i 0).val / 128) + (2 - 1) :=
      ⟨⟨2 * ((i 0).val / 128) + (2 - 1), by rw [show cfg1.N = 8 from N_1]; omega⟩, rfl⟩
    obtain ⟨e0, e1⟩ := idx_out s
    refine ⟨s, (flush_iff s).mpr (by omega), ?_⟩
    show i ∈ ((View.whole main_v1).slice (win1_1.rect s)).set
    rw [View.set_slice_whole, Rect.mem_set_unit]
    intro a
    match a with
    | ⟨0, _⟩ => show win1_1.index s (0 : Fin 2) * 128 ≤ (i 0).val ∧ (i 0).val < win1_1.index s (0 : Fin 2) * 128 + 128; rw [e0]; omega
    | ⟨1, _⟩ => show win1_1.index s (1 : Fin 2) * 128 ≤ (i 1).val ∧ (i 1).val < win1_1.index s (1 : Fin 2) * 128 + 128; rw [e1]; omega

end Cert.KernelIdeal.Value1

end
-- ==== Proof.KernelIdeal.Value2.lean ====
import proofs.«132601_j48773648613702_1_alg».proof.Proof.KernelIdeal.Region2
import proofs.«132601_j48773648613702_1_alg».proof.Proof.KernelIdeal.Sum
import proofs.«132601_j48773648613702_1_alg».proof.Proof.Gen.ReferenceIdeal.Read

noncomputable section

namespace Cert.KernelIdeal.Value2

open Cert.KernelIdeal Cert.KernelIdeal.Gen
open Idealize.ShloMosaic Idealize.ShloMosaic.TcCoe
open Idealize.ShloMosaic.Pipeline (Dat)
open Cert.KernelIdeal.Body Cert.KernelIdeal.Sum Cert.KernelIdeal.Region2
open Idealize.ShloMosaic.ValueIdx
open Cert.ReferenceIdeal.Read

variable (V : (c : Dev nD) → (b : Ref sig .tc) → Buf (Elt Ideal) ((c : Thread nD τ).loc b))

abbrev xarr (c : Dev nD) : Vec Ideal S512x192x128 .f32 := V c main_arg2

/-- Coordinates as natural numbers, so that sums over ranges of rows can be joined. -/
def at3 (x : Vec Ideal S512x192x128 .f32) (a k d : ℕ) : EReal :=
  if h : a < 512 ∧ k < 64 * 3 ∧ d < 128 then x (ix3 ⟨a, h.1⟩ ⟨k, h.2.1⟩ ⟨d, h.2.2⟩) else 0

theorem idx_in : ∀ t : Fin cfg2.N, win2_0.index t (0 : Fin 3) = t.val / 3 ∧ win2_0.index t (1 : Fin 3) = t.val % 3 ∧ win2_0.index t (2 : Fin 3) = 0 :=
  (by decide +kernel : ∀ t : Fin grid2.N, win2_0.index t (0 : Fin 3) = t.val / 3 ∧ win2_0.index t (1 : Fin 3) = t.val % 3 ∧ win2_0.index t (2 : Fin 3) = 0)
theorem idx_out : ∀ t : Fin cfg2.N, win2_1.index t (0 : Fin 2) = t.val / 3 ∧ win2_1.index t (1 : Fin 2) = 0 :=
  (by decide +kernel : ∀ t : Fin grid2.N, win2_1.index t (0 : Fin 2) = t.val / 3 ∧ win2_1.index t (1 : Fin 2) = 0)
theorem flush_iff : ∀ t : Fin cfg2.N, (cfg2.win 1).flush t = true ↔ t.val % 3 = 3 - 1 := flush2_1

theorem iblk_apply (c : Dev nD) (t : Fin cfg2.N) (p : Fin 128) (r : Fin 64) (q : Fin 128) :
    (iblk cfg2 V c 0 t : Vec Ideal S128x64x128 .f32) (ix3 p r q) = at3 (xarr V c) (128 * (t.val / 3) + p.val) (64 * (t.val % 3) + r.val) q.val := by
  have hN : t.val < 12 := lt_of_lt_of_eq t.isLt (show cfg2.N = 12 from N_2)
  have hp := p.isLt; have hr := r.isLt; have hq := q.isLt
  obtain ⟨h0, h1, h2⟩ := idx_in t
  have hb : 128 * (t.val / 3) + p.val < 512 ∧ 64 * (t.val % 3) + r.val < 64 * 3 ∧ q.val < 128 := by omega
  unfold at3; rw [dif_pos hb]
  unfold iblk
  rw [View.read_apply]
  show V c main_arg2 _ = V c main_arg2 _
  congr 1
  funext a
  apply Fin.ext
  match a with
  | ⟨0, _⟩ => show win2_0.index t (0 : Fin 3) * 128 + 1 * p.val = 128 * (t.val / 3) + p.val; rw [h0]; omega
  | ⟨1, _⟩ => show win2_0.index t (1 : Fin 3) * 64 + 1 * r.val = 64 * (t.val % 3) + r.val; rw [h1]; omega
  | ⟨2, _⟩ => show win2_0.index t (2 : Fin 3) * 128 + 1 * q.val = q.val; rw [h2]; omega

/-- The last point of a band leaves that band of the sum over the whole middle axis, which is the host's reduction there. -/
theorem flushed_eq (c : Dev nD) (t : Fin cfg2.N) (hf : (cfg2.win 1).flush t = true) :
    (dat V c).flushed 1 t = ((cfg2.win 1).blk t).view.read (Elt Ideal) (val_main_v2 (F := Ideal) (xarr V c)) := by
  have hN : t.val < 12 := lt_of_lt_of_eq t.isLt (show cfg2.N = 12 from N_2)
  have ht : t.val % 3 = 3 - 1 := (flush_iff t).mp hf
  obtain ⟨e0, e1⟩ := idx_out t
  show (cfg2.win 1).cut (grid2.coords t) ((dat V c).after 1 t) = _
  funext y
  obtain ⟨p, q, rfl⟩ : ∃ (p q : Fin 128), y = ix2 p q := ⟨y 0, y 1, eq_ix2 y⟩
  have hp := p.isLt; have hq := q.isLt
  show acc 3 (iblk cfg2 V c 0) t.val t.isLt (ix2 p q) = val_main_v2 (F := Ideal) (xarr V c) (((cfg2.win 1).blk t).view.emb (ix2 p q))
  rw [acc_apply (by decide) (iblk cfg2 V c 0) (at3 (xarr V c)) (iblk_apply V c) t.val t.isLt p q, val_main_v2_apply, val_main_cst_1_apply]
  show _ = (Ideal.ofBits .f32 0x00000000#32 : EReal) + _
  rw [Ideal.ofBits_zero_f32, zero_add, ht, Finset.sum_range]
  refine Finset.sum_congr rfl fun j _ => ?_
  have hj := j.isLt
  have hb : 128 * (t.val / 3) + p.val < 512 ∧ j.val < 64 * 3 ∧ q.val < 128 := by omega
  unfold at3; rw [dif_pos hb]
  refine congrArg (xarr V c) (funext fun a => Fin.ext ?_)
  match a with
  | ⟨0, _⟩ => show 128 * (t.val / 3) + p.val = win2_1.index t (0 : Fin 2) * 128 + 1 * p.val; rw [e0]; omega
  | ⟨1, _⟩ => rfl
  | ⟨2, _⟩ => show q.val = win2_1.index t (1 : Fin 2) * 128 + 1 * q.val; rw [e1]; omega

/-- Every row of the result lies in a band, so the result array ends at the host's reduction of the argument. -/
theorem final (c : Dev nD) : (dat V c).arrAt 1 cfg2.N = val_main_v2 (F := Ideal) (xarr V c) :=
  (dat V c).arrAt_eq_of_cover 1 (val_main_v2 (F := Ideal) (xarr V c)) (flushed_eq V c) fun i => by
    have hi0 : (i 0).val < 512 := (i 0).isLt
    have hi1 : (i 1).val < 128 := (i 1).isLt
    obtain ⟨s, hs⟩ : ∃ s : Fin cfg2.N, s.val = 3 * ((i 0).val / 128) + (3 - 1) :=
      ⟨⟨3 * ((i 0).val / 128) + (3 - 1), by rw [show cfg2.N = 12 from N_2]; omega⟩, rfl⟩
    obtain ⟨e0, e1⟩ := idx_out s
    refine ⟨s, (flush_iff s).mpr (by omega), ?_⟩
    show i ∈ ((View.whole main_v2).slice (win2_1.rect s)).set
    rw [View.set_slice_whole, Rect.mem_set_unit]
    intro a
    match a with
    | ⟨0, _⟩ => show win2_1.index s (0 : Fin 2) * 128 ≤ (i 0).val ∧ (i 0).val < win2_1.index s (0 : Fin 2) * 128 + 128; rw [e0]; omega
    | ⟨1, _⟩ => show win2_1.index s (1 : Fin 2) * 128 ≤ (i 1).val ∧ (i 1).val < win2_1.index s (1 : Fin 2) * 128 + 128; rw [e1]; omega

end Cert.KernelIdeal.Value2

end
-- ==== Proof.KernelIdeal.Value3.lean ====
import proofs.«132601_j48773648613702_1_alg».proof.Proof.KernelIdeal.Region3
import proofs.«132601_j48773648613702_1_alg».proof.Proof.KernelIdeal.Sum
import proofs.«132601_j48773648613702_1_alg».proof.Proof.Gen.ReferenceIdeal.Read

noncomputable section

namespace Cert.KernelIdeal.Value3

open Cert.KernelIdeal Cert.KernelIdeal.Gen
open Idealize.ShloMosaic Idealize.ShloMosaic.TcCoe
open Idealize.ShloMosaic.Pipeline (Dat)
open Cert.KernelIdeal.Body Cert.KernelIdeal.Sum Cert.KernelIdeal.Region3
open Idealize.ShloMosaic.ValueIdx
open Cert.ReferenceIdeal.Read

variable (V : (c : Dev nD) → (b : Ref sig .tc) → Buf (Elt Ideal) ((c : Thread nD τ).loc b))

abbrev xarr (c : Dev nD) : Vec Ideal S512x256x128 .f32 := V c main_arg3

/-- Coordinates as natural numbers, so that sums over ranges of rows can be joined. -/
def at3 (x : Vec Ideal S512x256x128 .f32) (a k d : ℕ) : EReal :=
  if h : a < 512 ∧ k < 64 * 4 ∧ d < 128 then x (ix3 ⟨a, h.1⟩ ⟨k, h.2.1⟩ ⟨d, h.2.2⟩) else 0

theorem idx_in : ∀ t : Fin cfg3.N, win3_0.index t (0 : Fin 3) = t.val / 4 ∧ win3_0.index t (1 : Fin 3) = t.val % 4 ∧ win3_0.index t (2 : Fin 3) = 0 :=
  (by decide +kernel : ∀ t : Fin grid3.N, win3_0.index t (0 : Fin 3) = t.val / 4 ∧ win3_0.index t (1 : Fin 3) = t.val % 4 ∧ win3_0.index t (2 : Fin 3) = 0)
theorem idx_out : ∀ t : Fin cfg3.N, win3_1.index t (0 : Fin 2) = t.val / 4 ∧ win3_1.index t (1 : Fin 2) = 0 :=
  (by decide +kernel : ∀ t : Fin grid3.N, win3_1.index t (0 : Fin 2) = t.val / 4 ∧ win3_1.index t (1 : Fin 2) = 0)
theorem flush_iff : ∀ t : Fin cfg3.N, (cfg3.win 1).flush t = true ↔ t.val % 4 = 4 - 1 := flush3_1

theorem iblk_apply (c : Dev nD) (t : Fin cfg3.N) (p : Fin 128) (r : Fin 64) (q : Fin 128) :
    (iblk cfg3 V c 0 t : Vec Ideal S128x64x128 .f32) (ix3 p r q) = at3 (xarr V c) (128 * (t.val / 4) + p.val) (64 * (t.val % 4) + r.val) q.val := by
  have hN : t.val < 16 := lt_of_lt_of_eq t.isLt (show cfg3.N = 16 from N_3)
  have hp := p.isLt; have hr := r.isLt; have hq := q.isLt
  obtain ⟨h0, h1, h2⟩ := idx_in t
  have hb : 128 * (t.val / 4) + p.val < 512 ∧ 64 * (t.val % 4) + r.val < 64 * 4 ∧ q.val < 128 := by omega
  unfold at3; rw [dif_pos hb]
  unfold iblk
  rw [View.read_apply]
  show V c main_arg3 _ = V c main_arg3 _
  congr 1
  funext a
  apply Fin.ext
  match a with
  | ⟨0, _⟩ => show win3_0.index t (0 : Fin 3) * 128 + 1 * p.val = 128 * (t.val / 4) + p.val; rw [h0]; omega
  | ⟨1, _⟩ => show win3_0.index t (1 : Fin 3) * 64 + 1 * r.val = 64 * (t.val % 4) + r.val; rw [h1]; omega
  | ⟨2, _⟩ => show win3_0.index t (2 : Fin 3) * 128 + 1 * q.val = q.val; rw [h2]; omega

/-- The last point of a band leaves that band of the sum over the whole middle axis, which is the host's reduction there. -/
theorem flushed_eq (c : Dev nD) (t : Fin cfg3.N) (hf : (cfg3.win 1).flush t = true) :
    (dat V c).flushed 1 t = ((cfg3.win 1).blk t).view.read (Elt Ideal) (val_main_v3 (F := Ideal) (xarr V c)) := by
  have hN : t.val < 16 := lt_of_lt_of_eq t.isLt (show cfg3.N = 16 from N_3)
  have ht : t.val % 4 = 4 - 1 := (flush_iff t).mp hf
  obtain ⟨e0, e1⟩ := idx_out t
  show (cfg3.win 1).cut (grid3.coords t) ((dat V c).after 1 t) = _
  funext y
  obtain ⟨p, q, rfl⟩ : ∃ (p q : Fin 128), y = ix2 p q := ⟨y 0, y 1, eq_ix2 y⟩
  have hp := p.isLt; have hq := q.isLt
  show acc 4 (iblk cfg3 V c 0) t.val t.isLt (ix2 p q) = val_main_v3 (F := Ideal) (xarr V c) (((cfg3.win 1).blk t).view.emb (ix2 p q))
  rw [acc_apply (by decide) (iblk cfg3 V c 0) (at3 (xarr V c)) (iblk_apply V c) t.val t.isLt p q, val_main_v3_apply, val_main_cst_2_apply]
  show _ = (Ideal.ofBits .f32 0x00000000#32 : EReal) + _
  rw [Ideal.ofBits_zero_f32, zero_add, ht, Finset.sum_range]
  refine Finset.sum_congr rfl fun j _ => ?_
  have hj := j.isLt
  have hb : 128 * (t.val / 4) + p.val < 512 ∧ j.val < 64 * 4 ∧ q.val < 128 := by omega
  unfold at3; rw [dif_pos hb]
  refine congrArg (xarr V c) (funext fun a => Fin.ext ?_)
  match a with
  | ⟨0, _⟩ => show 128 * (t.val / 4) + p.val = win3_1.index t (0 : Fin 2) * 128 + 1 * p.val; rw [e0]; omega
  | ⟨1, _⟩ => rfl
  | ⟨2, _⟩ => show q.val = win3_1.index t (1 : Fin 2) * 128 + 1 * q.val; rw [e1]; omega

/-- Every row of the result lies in a band, so the result array ends at the host's reduction of the argument. -/
theorem final (c : Dev nD) : (dat V c).arrAt 1 cfg3.N = val_main_v3 (F := Ideal) (xarr V c) :=
  (dat V c).arrAt_eq_of_cover 1 (val_main_v3 (F := Ideal) (xarr V c)) (flushed_eq V c) fun i => by
    have hi0 : (i 0).val < 512 := (i 0).isLt
    have hi1 : (i 1).val < 128 := (i 1).isLt
    obtain ⟨s, hs⟩ : ∃ s : Fin cfg3.N, s.val = 4 * ((i 0).val / 128) + (4 - 1) :=
      ⟨⟨4 * ((i 0).val / 128) + (4 - 1), by rw [show cfg3.N = 16 from N_3]; omega⟩, rfl⟩
    obtain ⟨e0, e1⟩ := idx_out s
    refine ⟨s, (flush_iff s).mpr (by omega), ?_⟩
    show i ∈ ((View.whole main_v3).slice (win3_1.rect s)).set
    rw [View.set_slice_whole, Rect.mem_set_unit]
    intro a
    match a with
    | ⟨0, _⟩ => show win3_1.index s (0 : Fin 2) * 128 ≤ (i 0).val ∧ (i 0).val < win3_1.index s (0 : Fin 2) * 128 + 128; rw [e0]; omega
    | ⟨1, _⟩ => show win3_1.index s (1 : Fin 2) * 128 ≤ (i 1).val ∧ (i 1).val < win3_1.index s (1 : Fin 2) * 128 + 128; rw [e1]; omega

end Cert.KernelIdeal.Value3

end
-- ==== Proof.KernelIdeal.Value4.lean ====
import proofs.«132601_j48773648613702_1_alg».proof.Proof.KernelIdeal.Region4
import proofs.«132601_j48773648613702_1_alg».proof.Proof.KernelIdeal.Sum
import proofs.«132601_j48773648613702_1_alg».proof.Proof.Gen.ReferenceIdeal.Read

noncomputable section

namespace Cert.KernelIdeal.Value4

open Cert.KernelIdeal Cert.KernelIdeal.Gen
open Idealize.ShloMosaic Idealize.ShloMosaic.TcCoe
open Idealize.ShloMosaic.Pipeline (Dat)
open Cert.KernelIdeal.Body Cert.KernelIdeal.Sum Cert.KernelIdeal.Region4
open Idealize.ShloMosaic.ValueIdx
open Cert.ReferenceIdeal.Read

variable (V : (c : Dev nD) → (b : Ref sig .tc) → Buf (Elt Ideal) ((c : Thread nD τ).loc b))

abbrev xarr (c : Dev nD) : Vec Ideal S512x320x128 .f32 := V c main_arg4

/-- Coordinates as natural numbers, so that sums over ranges of rows can be joined. -/
def at3 (x : Vec Ideal S512x320x128 .f32) (a k d : ℕ) : EReal :=
  if h : a < 512 ∧ k < 64 * 5 ∧ d < 128 then x (ix3 ⟨a, h.1⟩ ⟨k, h.2.1⟩ ⟨d, h.2.2⟩) else 0

theorem idx_in : ∀ t : Fin cfg4.N, win4_0.index t (0 : Fin 3) = t.val / 5 ∧ win4_0.index t (1 : Fin 3) = t.val % 5 ∧ win4_0.index t (2 : Fin 3) = 0 :=
  (by decide +kernel : ∀ t : Fin grid4.N, win4_0.index t (0 : Fin 3) = t.val / 5 ∧ win4_0.index t (1 : Fin 3) = t.val % 5 ∧ win4_0.index t (2 : Fin 3) = 0)
theorem idx_out : ∀ t : Fin cfg4.N, win4_1.index t (0 : Fin 2) = t.val / 5 ∧ win4_1.index t (1 : Fin 2) = 0 :=
  (by decide +kernel : ∀ t : Fin grid4.N, win4_1.index t (0 : Fin 2) = t.val / 5 ∧ win4_1.index t (1 : Fin 2) = 0)
theorem flush_iff : ∀ t : Fin cfg4.N, (cfg4.win 1).flush t = true ↔ t.val % 5 = 5 - 1 := flush4_1

theorem iblk_apply (c : Dev nD) (t : Fin cfg4.N) (p : Fin 128) (r : Fin 64) (q : Fin 128) :
    (iblk cfg4 V c 0 t : Vec Ideal S128x64x128 .f32) (ix3 p r q) = at3 (xarr V c) (128 * (t.val / 5) + p.val) (64 * (t.val % 5) + r.val) q.val := by
  have hN : t.val < 20 := lt_of_lt_of_eq t.isLt (show cfg4.N = 20 from N_4)
  have hp := p.isLt; have hr := r.isLt; have hq := q.isLt
  obtain ⟨h0, h1, h2⟩ := idx_in t
  have hb : 128 * (t.val / 5) + p.val < 512 ∧ 64 * (t.val % 5) + r.val < 64 * 5 ∧ q.val < 128 := by omega
  unfold at3; rw [dif_pos hb]
  unfold iblk
  rw [View.read_apply]
  show V c main_arg4 _ = V c main_arg4 _
  congr 1
  funext a
  apply Fin.ext
  match a with
  | ⟨0, _⟩ => show win4_0.index t (0 : Fin 3) * 128 + 1 * p.val = 128 * (t.val / 5) + p.val; rw [h0]; omega
  | ⟨1, _⟩ => show win4_0.index t (1 : Fin 3) * 64 + 1 * r.val = 64 * (t.val % 5) + r.val; rw [h1]; omega
  | ⟨2, _⟩ => show win4_0.index t (2 : Fin 3) * 128 + 1 * q.val = q.val; rw [h2]; omega

/-- The last point of a band leaves that band of the sum over the whole middle axis, which is the host's reduction there. -/
theorem flushed_eq (c : Dev nD) (t : Fin cfg4.N) (hf : (cfg4.win 1).flush t = true) :
    (dat V c).flushed 1 t = ((cfg4.win 1).blk t).view.read (Elt Ideal) (val_main_v4 (F := Ideal) (xarr V c)) := by
  have hN : t.val < 20 := lt_of_lt_of_eq t.isLt (show cfg4.N = 20 from N_4)
  have ht : t.val % 5 = 5 - 1 := (flush_iff t).mp hf
  obtain ⟨e0, e1⟩ := idx_out t
  show (cfg4.win 1).cut (grid4.coords t) ((dat V c).after 1 t) = _
  funext y
  obtain ⟨p, q, rfl⟩ : ∃ (p q : Fin 128), y = ix2 p q := ⟨y 0, y 1, eq_ix2 y⟩
  have hp := p.isLt; have hq := q.isLt
  show acc 5 (iblk cfg4 V c 0) t.val t.isLt (ix2 p q) = val_main_v4 (F := Ideal) (xarr V c) (((cfg4.win 1).blk t).view.emb (ix2 p q))
  rw [acc_apply (by decide) (iblk cfg4 V c 0) (at3 (xarr V c)) (iblk_apply V c) t.val t.isLt p q, val_main_v4_apply, val_main_cst_3_apply]
  show _ = (Ideal.ofBits .f32 0x00000000#32 : EReal) + _
  rw [Ideal.ofBits_zero_f32, zero_add, ht, Finset.sum_range]
  refine Finset.sum_congr rfl fun j _ => ?_
  have hj := j.isLt
  have hb : 128 * (t.val / 5) + p.val < 512 ∧ j.val < 64 * 5 ∧ q.val < 128 := by omega
  unfold at3; rw [dif_pos hb]
  refine congrArg (xarr V c) (funext fun a => Fin.ext ?_)
  match a with
  | ⟨0, _⟩ => show 128 * (t.val / 5) + p.val = win4_1.index t (0 : Fin 2) * 128 + 1 * p.val; rw [e0]; omega
  | ⟨1, _⟩ => rfl
  | ⟨2, _⟩ => show q.val = win4_1.index t (1 : Fin 2) * 128 + 1 * q.val; rw [e1]; omega

/-- Every row of the result lies in a band, so the result array ends at the host's reduction of the argument. -/
theorem final (c : Dev nD) : (dat V c).arrAt 1 cfg4.N = val_main_v4 (F := Ideal) (xarr V c) :=
  (dat V c).arrAt_eq_of_cover 1 (val_main_v4 (F := Ideal) (xarr V c)) (flushed_eq V c) fun i => by
    have hi0 : (i 0).val < 512 := (i 0).isLt
    have hi1 : (i 1).val < 128 := (i 1).isLt
    obtain ⟨s, hs⟩ : ∃ s : Fin cfg4.N, s.val = 5 * ((i 0).val / 128) + (5 - 1) :=
      ⟨⟨5 * ((i 0).val / 128) + (5 - 1), by rw [show cfg4.N = 20 from N_4]; omega⟩, rfl⟩
    obtain ⟨e0, e1⟩ := idx_out s
    refine ⟨s, (flush_iff s).mpr (by omega), ?_⟩
    show i ∈ ((View.whole main_v4).slice (win4_1.rect s)).set
    rw [View.set_slice_whole, Rect.mem_set_unit]
    intro a
    match a with
    | ⟨0, _⟩ => show win4_1.index s (0 : Fin 2) * 128 ≤ (i 0).val ∧ (i 0).val < win4_1.index s (0 : Fin 2) * 128 + 128; rw [e0]; omega
    | ⟨1, _⟩ => show win4_1.index s (1 : Fin 2) * 128 ≤ (i 1).val ∧ (i 1).val < win4_1.index s (1 : Fin 2) * 128 + 128; rw [e1]; omega

end Cert.KernelIdeal.Value4

end
-- ==== Proof.KernelIdeal.Value5.lean ====
import proofs.«132601_j48773648613702_1_alg».proof.Proof.KernelIdeal.Region5
import proofs.«132601_j48773648613702_1_alg».proof.Proof.KernelIdeal.Sum
import proofs.«132601_j48773648613702_1_alg».proof.Proof.Gen.ReferenceIdeal.Read

noncomputable section

namespace Cert.KernelIdeal.Value5

open Cert.KernelIdeal Cert.KernelIdeal.Gen
open Idealize.ShloMosaic Idealize.ShloMosaic.TcCoe
open Idealize.ShloMosaic.Pipeline (Dat)
open Cert.KernelIdeal.Body Cert.KernelIdeal.Sum Cert.KernelIdeal.Region5
open Idealize.ShloMosaic.ValueIdx
open Cert.ReferenceIdeal.Read

variable (V : (c : Dev nD) → (b : Ref sig .tc) → Buf (Elt Ideal) ((c : Thread nD τ).loc b))

abbrev xarr (c : Dev nD) : Vec Ideal S512x384x128 .f32 := V c main_arg5

/-- Coordinates as natural numbers, so that sums over ranges of rows can be joined. -/
def at3 (x : Vec Ideal S512x384x128 .f32) (a k d : ℕ) : EReal :=
  if h : a < 512 ∧ k < 64 * 6 ∧ d < 128 then x (ix3 ⟨a, h.1⟩ ⟨k, h.2.1⟩ ⟨d, h.2.2⟩) else 0

theorem idx_in : ∀ t : Fin cfg5.N, win5_0.index t (0 : Fin 3) = t.val / 6 ∧ win5_0.index t (1 : Fin 3) = t.val % 6 ∧ win5_0.index t (2 : Fin 3) = 0 :=
  (by decide +kernel : ∀ t : Fin grid5.N, win5_0.index t (0 : Fin 3) = t.val / 6 ∧ win5_0.index t (1 : Fin 3) = t.val % 6 ∧ win5_0.index t (2 : Fin 3) = 0)
theorem idx_out : ∀ t : Fin cfg5.N, win5_1.index t (0 : Fin 2) = t.val / 6 ∧ win5_1.index t (1 : Fin 2) = 0 :=
  (by decide +kernel : ∀ t : Fin grid5.N, win5_1.index t (0 : Fin 2) = t.val / 6 ∧ win5_1.index t (1 : Fin 2) = 0)
theorem flush_iff : ∀ t : Fin cfg5.N, (cfg5.win 1).flush t = true ↔ t.val % 6 = 6 - 1 := flush5_1

theorem iblk_apply (c : Dev nD) (t : Fin cfg5.N) (p : Fin 128) (r : Fin 64) (q : Fin 128) :
    (iblk cfg5 V c 0 t : Vec Ideal S128x64x128 .f32) (ix3 p r q) = at3 (xarr V c) (128 * (t.val / 6) + p.val) (64 * (t.val % 6) + r.val) q.val := by
  have hN : t.val < 24 := lt_of_lt_of_eq t.isLt (show cfg5.N = 24 from N_5)
  have hp := p.isLt; have hr := r.isLt; have hq := q.isLt
  obtain ⟨h0, h1, h2⟩ := idx_in t
  have hb : 128 * (t.val / 6) + p.val < 512 ∧ 64 * (t.val % 6) + r.val < 64 * 6 ∧ q.val < 128 := by omega
  unfold at3; rw [dif_pos hb]
  unfold iblk
  rw [View.read_apply]
  show V c main_arg5 _ = V c main_arg5 _
  congr 1
  funext a
  apply Fin.ext
  match a with
  | ⟨0, _⟩ => show win5_0.index t (0 : Fin 3) * 128 + 1 * p.val = 128 * (t.val / 6) + p.val; rw [h0]; omega
  | ⟨1, _⟩ => show win5_0.index t (1 : Fin 3) * 64 + 1 * r.val = 64 * (t.val % 6) + r.val; rw [h1]; omega
  | ⟨2, _⟩ => show win5_0.index t (2 : Fin 3) * 128 + 1 * q.val = q.val; rw [h2]; omega

/-- The last point of a band leaves that band of the sum over the whole middle axis, which is the host's reduction there. -/
theorem flushed_eq (c : Dev nD) (t : Fin cfg5.N) (hf : (cfg5.win 1).flush t = true) :
    (dat V c).flushed 1 t = ((cfg5.win 1).blk t).view.read (Elt Ideal) (val_main_v5 (F := Ideal) (xarr V c)) := by
  have hN : t.val < 24 := lt_of_lt_of_eq t.isLt (show cfg5.N = 24 from N_5)
  have ht : t.val % 6 = 6 - 1 := (flush_iff t).mp hf
  obtain ⟨e0, e1⟩ := idx_out t
  show (cfg5.win 1).cut (grid5.coords t) ((dat V c).after 1 t) = _
  funext y
  obtain ⟨p, q, rfl⟩ : ∃ (p q : Fin 128), y = ix2 p q := ⟨y 0, y 1, eq_ix2 y⟩
  have hp := p.isLt; have hq := q.isLt
  show acc 6 (iblk cfg5 V c 0) t.val t.isLt (ix2 p q) = val_main_v5 (F := Ideal) (xarr V c) (((cfg5.win 1).blk t).view.emb (ix2 p q))
  rw [acc_apply (by decide) (iblk cfg5 V c 0) (at3 (xarr V c)) (iblk_apply V c) t.val t.isLt p q, val_main_v5_apply, val_main_cst_4_apply]
  show _ = (Ideal.ofBits .f32 0x00000000#32 : EReal) + _
  rw [Ideal.ofBits_zero_f32, zero_add, ht, Finset.sum_range]
  refine Finset.sum_congr rfl fun j _ => ?_
  have hj := j.isLt
  have hb : 128 * (t.val / 6) + p.val < 512 ∧ j.val < 64 * 6 ∧ q.val < 128 := by omega
  unfold at3; rw [dif_pos hb]
  refine congrArg (xarr V c) (funext fun a => Fin.ext ?_)
  match a with
  | ⟨0, _⟩ => show 128 * (t.val / 6) + p.val = win5_1.index t (0 : Fin 2) * 128 + 1 * p.val; rw [e0]; omega
  | ⟨1, _⟩ => rfl
  | ⟨2, _⟩ => show q.val = win5_1.index t (1 : Fin 2) * 128 + 1 * q.val; rw [e1]; omega

/-- Every row of the result lies in a band, so the result array ends at the host's reduction of the argument. -/
theorem final (c : Dev nD) : (dat V c).arrAt 1 cfg5.N = val_main_v5 (F := Ideal) (xarr V c) :=
  (dat V c).arrAt_eq_of_cover 1 (val_main_v5 (F := Ideal) (xarr V c)) (flushed_eq V c) fun i => by
    have hi0 : (i 0).val < 512 := (i 0).isLt
    have hi1 : (i 1).val < 128 := (i 1).isLt
    obtain ⟨s, hs⟩ : ∃ s : Fin cfg5.N, s.val = 6 * ((i 0).val / 128) + (6 - 1) :=
      ⟨⟨6 * ((i 0).val / 128) + (6 - 1), by rw [show cfg5.N = 24 from N_5]; omega⟩, rfl⟩
    obtain ⟨e0, e1⟩ := idx_out s
    refine ⟨s, (flush_iff s).mpr (by omega), ?_⟩
    show i ∈ ((View.whole main_v5).slice (win5_1.rect s)).set
    rw [View.set_slice_whole, Rect.mem_set_unit]
    intro a
    match a with
    | ⟨0, _⟩ => show win5_1.index s (0 : Fin 2) * 128 ≤ (i 0).val ∧ (i 0).val < win5_1.index s (0 : Fin 2) * 128 + 128; rw [e0]; omega
    | ⟨1, _⟩ => show win5_1.index s (1 : Fin 2) * 128 ≤ (i 1).val ∧ (i 1).val < win5_1.index s (1 : Fin 2) * 128 + 128; rw [e1]; omega

end Cert.KernelIdeal.Value5

end
-- ==== Proof.KernelIdeal.Value6.lean ====
import proofs.«132601_j48773648613702_1_alg».proof.Proof.KernelIdeal.Region6
import proofs.«132601_j48773648613702_1_alg».proof.Proof.KernelIdeal.Sum
import proofs.«132601_j48773648613702_1_alg».proof.Proof.Gen.ReferenceIdeal.Read

noncomputable section

namespace Cert.KernelIdeal.Value6

open Cert.KernelIdeal Cert.KernelIdeal.Gen
open Idealize.ShloMosaic Idealize.ShloMosaic.TcCoe
open Idealize.ShloMosaic.Pipeline (Dat)
open Cert.KernelIdeal.Body Cert.KernelIdeal.Sum Cert.KernelIdeal.Region6
open Idealize.ShloMosaic.ValueIdx
open Cert.ReferenceIdeal.Read

variable (V : (c : Dev nD) → (b : Ref sig .tc) → Buf (Elt Ideal) ((c : Thread nD τ).loc b))

abbrev xarr (c : Dev nD) : Vec Ideal S512x448x128 .f32 := V c main_arg6

/-- Coordinates as natural numbers, so that sums over ranges of rows can be joined. -/
def at3 (x : Vec Ideal S512x448x128 .f32) (a k d : ℕ) : EReal :=
  if h : a < 512 ∧ k < 64 * 7 ∧ d < 128 then x (ix3 ⟨a, h.1⟩ ⟨k, h.2.1⟩ ⟨d, h.2.2⟩) else 0

theorem idx_in : ∀ t : Fin cfg6.N, win6_0.index t (0 : Fin 3) = t.val / 7 ∧ win6_0.index t (1 : Fin 3) = t.val % 7 ∧ win6_0.index t (2 : Fin 3) = 0 :=
  (by decide +kernel : ∀ t : Fin grid6.N, win6_0.index t (0 : Fin 3) = t.val / 7 ∧ win6_0.index t (1 : Fin 3) = t.val % 7 ∧ win6_0.index t (2 : Fin 3) = 0)
theorem idx_out : ∀ t : Fin cfg6.N, win6_1.index t (0 : Fin 2) = t.val / 7 ∧ win6_1.index t (1 : Fin 2) = 0 :=
  (by decide +kernel : ∀ t : Fin grid6.N, win6_1.index t (0 : Fin 2) = t.val / 7 ∧ win6_1.index t (1 : Fin 2) = 0)
theorem flush_iff : ∀ t : Fin cfg6.N, (cfg6.win 1).flush t = true ↔ t.val % 7 = 7 - 1 := flush6_1

theorem iblk_apply (c : Dev nD) (t : Fin cfg6.N) (p : Fin 128) (r : Fin 64) (q : Fin 128) :
    (iblk cfg6 V c 0 t : Vec Ideal S128x64x128 .f32) (ix3 p r q) = at3 (xarr V c) (128 * (t.val / 7) + p.val) (64 * (t.val % 7) + r.val) q.val := by
  have hN : t.val < 28 := lt_of_lt_of_eq t.isLt (show cfg6.N = 28 from N_6)
  have hp := p.isLt; have hr := r.isLt; have hq := q.isLt
  obtain ⟨h0, h1, h2⟩ := idx_in t
  have hb : 128 * (t.val / 7) + p.val < 512 ∧ 64 * (t.val % 7) + r.val < 64 * 7 ∧ q.val < 128 := by omega
  unfold at3; rw [dif_pos hb]
  unfold iblk
  rw [View.read_apply]
  show V c main_arg6 _ = V c main_arg6 _
  congr 1
  funext a
  apply Fin.ext
  match a with
  | ⟨0, _⟩ => show win6_0.index t (0 : Fin 3) * 128 + 1 * p.val = 128 * (t.val / 7) + p.val; rw [h0]; omega
  | ⟨1, _⟩ => show win6_0.index t (1 : Fin 3) * 64 + 1 * r.val = 64 * (t.val % 7) + r.val; rw [h1]; omega
  | ⟨2, _⟩ => show win6_0.index t (2 : Fin 3) * 128 + 1 * q.val = q.val; rw [h2]; omega

/-- The last point of a band leaves that band of the sum over the whole middle axis, which is the host's reduction there. -/
theorem flushed_eq (c : Dev nD) (t : Fin cfg6.N) (hf : (cfg6.win 1).flush t = true) :
    (dat V c).flushed 1 t = ((cfg6.win 1).blk t).view.read (Elt Ideal) (val_main_v6 (F := Ideal) (xarr V c)) := by
  have hN : t.val < 28 := lt_of_lt_of_eq t.isLt (show cfg6.N = 28 from N_6)
  have ht : t.val % 7 = 7 - 1 := (flush_iff t).mp hf
  obtain ⟨e0, e1⟩ := idx_out t
  show (cfg6.win 1).cut (grid6.coords t) ((dat V c).after 1 t) = _
  funext y
  obtain ⟨p, q, rfl⟩ : ∃ (p q : Fin 128), y = ix2 p q := ⟨y 0, y 1, eq_ix2 y⟩
  have hp := p.isLt; have hq := q.isLt
  show acc 7 (iblk cfg6 V c 0) t.val t.isLt (ix2 p q) = val_main_v6 (F := Ideal) (xarr V c) (((cfg6.win 1).blk t).view.emb (ix2 p q))
  rw [acc_apply (by decide) (iblk cfg6 V c 0) (at3 (xarr V c)) (iblk_apply V c) t.val t.isLt p q, val_main_v6_apply, val_main_cst_5_apply]
  show _ = (Ideal.ofBits .f32 0x00000000#32 : EReal) + _
  rw [Ideal.ofBits_zero_f32, zero_add, ht, Finset.sum_range]
  refine Finset.sum_congr rfl fun j _ => ?_
  have hj := j.isLt
  have hb : 128 * (t.val / 7) + p.val < 512 ∧ j.val < 64 * 7 ∧ q.val < 128 := by omega
  unfold at3; rw [dif_pos hb]
  refine congrArg (xarr V c) (funext fun a => Fin.ext ?_)
  match a with
  | ⟨0, _⟩ => show 128 * (t.val / 7) + p.val = win6_1.index t (0 : Fin 2) * 128 + 1 * p.val; rw [e0]; omega
  | ⟨1, _⟩ => rfl
  | ⟨2, _⟩ => show q.val = win6_1.index t (1 : Fin 2) * 128 + 1 * q.val; rw [e1]; omega

/-- Every row of the result lies in a band, so the result array ends at the host's reduction of the argument. -/
theorem final (c : Dev nD) : (dat V c).arrAt 1 cfg6.N = val_main_v6 (F := Ideal) (xarr V c) :=
  (dat V c).arrAt_eq_of_cover 1 (val_main_v6 (F := Ideal) (xarr V c)) (flushed_eq V c) fun i => by
    have hi0 : (i 0).val < 512 := (i 0).isLt
    have hi1 : (i 1).val < 128 := (i 1).isLt
    obtain ⟨s, hs⟩ : ∃ s : Fin cfg6.N, s.val = 7 * ((i 0).val / 128) + (7 - 1) :=
      ⟨⟨7 * ((i 0).val / 128) + (7 - 1), by rw [show cfg6.N = 28 from N_6]; omega⟩, rfl⟩
    obtain ⟨e0, e1⟩ := idx_out s
    refine ⟨s, (flush_iff s).mpr (by omega), ?_⟩
    show i ∈ ((View.whole main_v6).slice (win6_1.rect s)).set
    rw [View.set_slice_whole, Rect.mem_set_unit]
    intro a
    match a with
    | ⟨0, _⟩ => show win6_1.index s (0 : Fin 2) * 128 ≤ (i 0).val ∧ (i 0).val < win6_1.index s (0 : Fin 2) * 128 + 128; rw [e0]; omega
    | ⟨1, _⟩ => show win6_1.index s (1 : Fin 2) * 128 ≤ (i 1).val ∧ (i 1).val < win6_1.index s (1 : Fin 2) * 128 + 128; rw [e1]; omega

end Cert.KernelIdeal.Value6

end
-- ==== Proof.KernelIdeal.Value7.lean ====
import proofs.«132601_j48773648613702_1_alg».proof.Proof.KernelIdeal.Region7
import proofs.«132601_j48773648613702_1_alg».proof.Proof.KernelIdeal.Sum
import proofs.«132601_j48773648613702_1_alg».proof.Proof.Gen.ReferenceIdeal.Read

noncomputable section

namespace Cert.KernelIdeal.Value7

open Cert.KernelIdeal Cert.KernelIdeal.Gen
open Idealize.ShloMosaic Idealize.ShloMosaic.TcCoe
open Idealize.ShloMosaic.Pipeline (Dat)
open Cert.KernelIdeal.Body Cert.KernelIdeal.Sum Cert.KernelIdeal.Region7
open Idealize.ShloMosaic.ValueIdx
open Cert.ReferenceIdeal.Read

variable (V : (c : Dev nD) → (b : Ref sig .tc) → Buf (Elt Ideal) ((c : Thread nD τ).loc b))

abbrev xarr (c : Dev nD) : Vec Ideal S512x512x128 .f32 := V c main_arg7

/-- Coordinates as natural numbers, so that sums over ranges of rows can be joined. -/
def at3 (x : Vec Ideal S512x512x128 .f32) (a k d : ℕ) : EReal :=
  if h : a < 512 ∧ k < 64 * 8 ∧ d < 128 then x (ix3 ⟨a, h.1⟩ ⟨k, h.2.1⟩ ⟨d, h.2.2⟩) else 0

theorem idx_in : ∀ t : Fin cfg7.N, win7_0.index t (0 : Fin 3) = t.val / 8 ∧ win7_0.index t (1 : Fin 3) = t.val % 8 ∧ win7_0.index t (2 : Fin 3) = 0 :=
  (by decide +kernel : ∀ t : Fin grid7.N, win7_0.index t (0 : Fin 3) = t.val / 8 ∧ win7_0.index t (1 : Fin 3) = t.val % 8 ∧ win7_0.index t (2 : Fin 3) = 0)
theorem idx_out : ∀ t : Fin cfg7.N, win7_1.index t (0 : Fin 2) = t.val / 8 ∧ win7_1.index t (1 : Fin 2) = 0 :=
  (by decide +kernel : ∀ t : Fin grid7.N, win7_1.index t (0 : Fin 2) = t.val / 8 ∧ win7_1.index t (1 : Fin 2) = 0)
theorem flush_iff : ∀ t : Fin cfg7.N, (cfg7.win 1).flush t = true ↔ t.val % 8 = 8 - 1 := flush7_1

theorem iblk_apply (c : Dev nD) (t : Fin cfg7.N) (p : Fin 128) (r : Fin 64) (q : Fin 128) :
    (iblk cfg7 V c 0 t : Vec Ideal S128x64x128 .f32) (ix3 p r q) = at3 (xarr V c) (128 * (t.val / 8) + p.val) (64 * (t.val % 8) + r.val) q.val := by
  have hN : t.val < 32 := lt_of_lt_of_eq t.isLt (show cfg7.N = 32 from N_7)
  have hp := p.isLt; have hr := r.isLt; have hq := q.isLt
  obtain ⟨h0, h1, h2⟩ := idx_in t
  have hb : 128 * (t.val / 8) + p.val < 512 ∧ 64 * (t.val % 8) + r.val < 64 * 8 ∧ q.val < 128 := by omega
  unfold at3; rw [dif_pos hb]
  unfold iblk
  rw [View.read_apply]
  show V c main_arg7 _ = V c main_arg7 _
  congr 1
  funext a
  apply Fin.ext
  match a with
  | ⟨0, _⟩ => show win7_0.index t (0 : Fin 3) * 128 + 1 * p.val = 128 * (t.val / 8) + p.val; rw [h0]; omega
  | ⟨1, _⟩ => show win7_0.index t (1 : Fin 3) * 64 + 1 * r.val = 64 * (t.val % 8) + r.val; rw [h1]; omega
  | ⟨2, _⟩ => show win7_0.index t (2 : Fin 3) * 128 + 1 * q.val = q.val; rw [h2]; omega

/-- The last point of a band leaves that band of the sum over the whole middle axis, which is the host's reduction there. -/
theorem flushed_eq (c : Dev nD) (t : Fin cfg7.N) (hf : (cfg7.win 1).flush t = true) :
    (dat V c).flushed 1 t = ((cfg7.win 1).blk t).view.read (Elt Ideal) (val_main_v7 (F := Ideal) (xarr V c)) := by
  have hN : t.val < 32 := lt_of_lt_of_eq t.isLt (show cfg7.N = 32 from N_7)
  have ht : t.val % 8 = 8 - 1 := (flush_iff t).mp hf
  obtain ⟨e0, e1⟩ := idx_out t
  show (cfg7.win 1).cut (grid7.coords t) ((dat V c).after 1 t) = _
  funext y
  obtain ⟨p, q, rfl⟩ : ∃ (p q : Fin 128), y = ix2 p q := ⟨y 0, y 1, eq_ix2 y⟩
  have hp := p.isLt; have hq := q.isLt
  show acc 8 (iblk cfg7 V c 0) t.val t.isLt (ix2 p q) = val_main_v7 (F := Ideal) (xarr V c) (((cfg7.win 1).blk t).view.emb (ix2 p q))
  rw [acc_apply (by decide) (iblk cfg7 V c 0) (at3 (xarr V c)) (iblk_apply V c) t.val t.isLt p q, val_main_v7_apply, val_main_cst_6_apply]
  show _ = (Ideal.ofBits .f32 0x00000000#32 : EReal) + _
  rw [Ideal.ofBits_zero_f32, zero_add, ht, Finset.sum_range]
  refine Finset.sum_congr rfl fun j _ => ?_
  have hj := j.isLt
  have hb : 128 * (t.val / 8) + p.val < 512 ∧ j.val < 64 * 8 ∧ q.val < 128 := by omega
  unfold at3; rw [dif_pos hb]
  refine congrArg (xarr V c) (funext fun a => Fin.ext ?_)
  match a with
  | ⟨0, _⟩ => show 128 * (t.val / 8) + p.val = win7_1.index t (0 : Fin 2) * 128 + 1 * p.val; rw [e0]; omega
  | ⟨1, _⟩ => rfl
  | ⟨2, _⟩ => show q.val = win7_1.index t (1 : Fin 2) * 128 + 1 * q.val; rw [e1]; omega

/-- Every row of the result lies in a band, so the result array ends at the host's reduction of the argument. -/
theorem final (c : Dev nD) : (dat V c).arrAt 1 cfg7.N = val_main_v7 (F := Ideal) (xarr V c) :=
  (dat V c).arrAt_eq_of_cover 1 (val_main_v7 (F := Ideal) (xarr V c)) (flushed_eq V c) fun i => by
    have hi0 : (i 0).val < 512 := (i 0).isLt
    have hi1 : (i 1).val < 128 := (i 1).isLt
    obtain ⟨s, hs⟩ : ∃ s : Fin cfg7.N, s.val = 8 * ((i 0).val / 128) + (8 - 1) :=
      ⟨⟨8 * ((i 0).val / 128) + (8 - 1), by rw [show cfg7.N = 32 from N_7]; omega⟩, rfl⟩
    obtain ⟨e0, e1⟩ := idx_out s
    refine ⟨s, (flush_iff s).mpr (by omega), ?_⟩
    show i ∈ ((View.whole main_v7).slice (win7_1.rect s)).set
    rw [View.set_slice_whole, Rect.mem_set_unit]
    intro a
    match a with
    | ⟨0, _⟩ => show win7_1.index s (0 : Fin 2) * 128 ≤ (i 0).val ∧ (i 0).val < win7_1.index s (0 : Fin 2) * 128 + 128; rw [e0]; omega
    | ⟨1, _⟩ => show win7_1.index s (1 : Fin 2) * 128 ≤ (i 1).val ∧ (i 1).val < win7_1.index s (1 : Fin 2) * 128 + 128; rw [e1]; omega

end Cert.KernelIdeal.Value7

end
-- ==== Proof.lean ====
/-
  Eight arrays `f32[512, 64 (K + 1), 128]` are each summed over the middle axis by a pallas_call that adds one run of 64 rows per
  grid step into the result block, and the eight results are concatenated; the reference is jnp's `sum` and `concatenate`.
  All eight kernel functions are one function of the second grid coordinate, run symbolically once. The runs of a band are
  consecutive stretches of one sum, joined by associativity alone, so nothing is asked of the inputs' finiteness.
-/
import proofs.«132601_j48773648613702_1_alg».proof.Defs
import proofs.«132601_j48773648613702_1_alg».proof.Proof.Gen.Kernel
import proofs.«132601_j48773648613702_1_alg».proof.Proof.Gen.KernelIdeal
import proofs.«132601_j48773648613702_1_alg».proof.Proof.Gen.ReferenceIdeal
import proofs.«132601_j48773648613702_1_alg».proof.Proof.Gen.Pre_finite_inputs
import proofs.«132601_j48773648613702_1_alg».proof.Proof.Gen.ReferenceIdeal.Run
import proofs.«132601_j48773648613702_1_alg».proof.Proof.Gen.ReferenceIdeal.Read
import proofs.«132601_j48773648613702_1_alg».proof.Proof.Kernel.Run
import proofs.«132601_j48773648613702_1_alg».proof.Proof.KernelIdeal.Run
import proofs.«132601_j48773648613702_1_alg».proof.Proof.KernelIdeal.Value0
import proofs.«132601_j48773648613702_1_alg».proof.Proof.KernelIdeal.Value1
import proofs.«132601_j48773648613702_1_alg».proof.Proof.KernelIdeal.Value2
import proofs.«132601_j48773648613702_1_alg».proof.Proof.KernelIdeal.Value3
import proofs.«132601_j48773648613702_1_alg».proof.Proof.KernelIdeal.Value4
import proofs.«132601_j48773648613702_1_alg».proof.Proof.KernelIdeal.Value5
import proofs.«132601_j48773648613702_1_alg».proof.Proof.KernelIdeal.Value6
import proofs.«132601_j48773648613702_1_alg».proof.Proof.KernelIdeal.Value7
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Run.frame (F := Bits) m ρ

theorem frame_kernelIdeal : Cert.frame_KernelIdeal := fun m ρ _ => Cert.KernelIdeal.Run.frame (F := Ideal) m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

open Cert.KernelIdeal Cert.KernelIdeal.Fold in
/-- Result array K is not touched after region K, which leaves there the host's reduction of argument K, not touched before it. -/
theorem algebraic : Cert.algebraic_KernelIdeal_ReferenceIdeal := by
  intro m ρ m' ρ' _ hagree
  refine ⟨_, Cert.KernelIdeal.Run.result (F := Ideal) m ρ, ?_⟩
  refine (θ_run Cert.ReferenceIdeal.defs _ _).mono (fun _ h c => ⟨(h c).1.trans ?_, (h c).2⟩)
    (Cert.ReferenceIdeal.Value.run (F := Ideal) m' ρ')
  have e0 : W m 8 c (Proc.devRef .tc main_v0)
      = Cert.ReferenceIdeal.Read.val_main_v0 (F := Ideal) (m' ((c.tc : Thread Cert.ReferenceIdeal.nD Cert.ReferenceIdeal.τ).loc Cert.ReferenceIdeal.main_arg0)) :=
    (W_keep m c main_v0 1 (by decide) 8 (by decide)).trans <| (W_arr m 0 c 1).trans <| (Cert.KernelIdeal.Value0.final (E m 0) c).trans <|
      congrArg _ <| (W_keep m c main_arg0 0 (by decide) 0 (Nat.zero_le _)).trans (hagree c).1.symm
  have e1 : W m 8 c (Proc.devRef .tc main_v1)
      = Cert.ReferenceIdeal.Read.val_main_v1 (F := Ideal) (m' ((c.tc : Thread Cert.ReferenceIdeal.nD Cert.ReferenceIdeal.τ).loc Cert.ReferenceIdeal.main_arg1)) :=
    (W_keep m c main_v1 2 (by decide) 8 (by decide)).trans <| (W_arr m 1 c 1).trans <| (Cert.KernelIdeal.Value1.final (E m 1) c).trans <|
      congrArg _ <| (W_keep m c main_arg1 0 (by decide) 1 (Nat.zero_le _)).trans (hagree c).2.1.symm
  have e2 : W m 8 c (Proc.devRef .tc main_v2)
      = Cert.ReferenceIdeal.Read.val_main_v2 (F := Ideal) (m' ((c.tc : Thread Cert.ReferenceIdeal.nD Cert.ReferenceIdeal.τ).loc Cert.ReferenceIdeal.main_arg2)) :=
    (W_keep m c main_v2 3 (by decide) 8 (by decide)).trans <| (W_arr m 2 c 1).trans <| (Cert.KernelIdeal.Value2.final (E m 2) c).trans <|
      congrArg _ <| (W_keep m c main_arg2 0 (by decide) 2 (Nat.zero_le _)).trans (hagree c).2.2.1.symm
  have e3 : W m 8 c (Proc.devRef .tc main_v3)
      = Cert.ReferenceIdeal.Read.val_main_v3 (F := Ideal) (m' ((c.tc : Thread Cert.ReferenceIdeal.nD Cert.ReferenceIdeal.τ).loc Cert.ReferenceIdeal.main_arg3)) :=
    (W_keep m c main_v3 4 (by decide) 8 (by decide)).trans <| (W_arr m 3 c 1).trans <| (Cert.KernelIdeal.Value3.final (E m 3) c).trans <|
      congrArg _ <| (W_keep m c main_arg3 0 (by decide) 3 (Nat.zero_le _)).trans (hagree c).2.2.2.1.symm
  have e4 : W m 8 c (Proc.devRef .tc main_v4)
      = Cert.ReferenceIdeal.Read.val_main_v4 (F := Ideal) (m' ((c.tc : Thread Cert.ReferenceIdeal.nD Cert.ReferenceIdeal.τ).loc Cert.ReferenceIdeal.main_arg4)) :=
    (W_keep m c main_v4 5 (by decide) 8 (by decide)).trans <| (W_arr m 4 c 1).trans <| (Cert.KernelIdeal.Value4.final (E m 4) c).trans <|
      congrArg _ <| (W_keep m c main_arg4 0 (by decide) 4 (Nat.zero_le _)).trans (hagree c).2.2.2.2.1.symm
  have e5 : W m 8 c (Proc.devRef .tc main_v5)
      = Cert.ReferenceIdeal.Read.val_main_v5 (F := Ideal) (m' ((c.tc : Thread Cert.ReferenceIdeal.nD Cert.ReferenceIdeal.τ).loc Cert.ReferenceIdeal.main_arg5)) :=
    (W_keep m c main_v5 6 (by decide) 8 (by decide)).trans <| (W_arr m 5 c 1).trans <| (Cert.KernelIdeal.Value5.final (E m 5) c).trans <|
      congrArg _ <| (W_keep m c main_arg5 0 (by decide) 5 (Nat.zero_le _)).trans (hagree c).2.2.2.2.2.1.symm
  have e6 : W m 8 c (Proc.devRef .tc main_v6)
      = Cert.ReferenceIdeal.Read.val_main_v6 (F := Ideal) (m' ((c.tc : Thread Cert.ReferenceIdeal.nD Cert.ReferenceIdeal.τ).loc Cert.ReferenceIdeal.main_arg6)) :=
    (W_keep m c main_v6 7 (by decide) 8 (by decide)).trans <| (W_arr m 6 c 1).trans <| (Cert.KernelIdeal.Value6.final (E m 6) c).trans <|
      congrArg _ <| (W_keep m c main_arg6 0 (by decide) 6 (Nat.zero_le _)).trans (hagree c).2.2.2.2.2.2.1.symm
  have e7 : W m 8 c (Proc.devRef .tc main_v7)
      = Cert.ReferenceIdeal.Read.val_main_v7 (F := Ideal) (m' ((c.tc : Thread Cert.ReferenceIdeal.nD Cert.ReferenceIdeal.τ).loc Cert.ReferenceIdeal.main_arg7)) :=
    (W_keep m c main_v7 8 (by decide) 8 (by decide)).trans <| (W_arr m 7 c 1).trans <| (Cert.KernelIdeal.Value7.final (E m 7) c).trans <|
      congrArg _ <| (W_keep m c main_arg7 0 (by decide) 7 (Nat.zero_le _)).trans (hagree c).2.2.2.2.2.2.2.symm
  unfold outcome
  rw [e0, e1, e2, e3, e4, e5, e6, e7]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
